-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x8192 : Shape := ⟨2, ![16, 8192]⟩
abbrev S8192x128 : Shape := ⟨2, ![8192, 128]⟩
abbrev S64x128 : Shape := ⟨2, ![64, 128]⟩
abbrev S64 : Shape := ⟨1, ![64]⟩
abbrev S_ : Shape := ⟨0, ![]⟩

class Facts : Prop where
  bcast_S_S16x8192 : S_.BroadcastsInDim S16x8192 (![] : Fin 0 → Fin S16x8192.rank)
  reducesTo_S16x8192_S_d0_1 : S16x8192.ReducesTo [0, 1] S_
  h_S_ : 0 < S_.numel
  bcast_S_S8192x128 : S_.BroadcastsInDim S8192x128 (![] : Fin 0 → Fin S8192x128.rank)
  reducesTo_S8192x128_S_d0_1 : S8192x128.ReducesTo [0, 1] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64x128 .f32) (main_arg5 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x128 .f32 := Host.absf main_arg4
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : FVec F S16x8192 .f32) (main_arg1 : FVec F S8192x128 .f32) (main_arg2 : FVec F S64x128 .f32) (main_arg3 : FVec F S64 .f32) (main_arg4 : FVec F S64x128 .f32) (main_arg5 : FVec F S64 .f32) : IVec S_ 1 :=
  let main_v0 : FVec F S16x8192 .f32 := Host.absf main_arg0
  let main_cst : FVec F S_ .f32 := constant S_ .f32 0x7F800000#32
  let main_v1 : FVec F S16x8192 .f32 := broadcastInDim S16x8192 ![] bcast_S_S16x8192 main_cst
  let main_v2 : IVec S16x8192 1 := cmpf .olt main_v0 main_v1
  let main_c : IVec S_ 1 := constantI S_ 1 1#1
  let main_v3 : IVec S_ 1 := (fun x v => Host.reduce IntOp.andi x v reducesTo_S16x8192_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  let main_v9 : FVec F S64x128 .f32 := Host.absf main_arg2
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_v13 main_v16
-- ==== Kernel.lean ====
abbrev S16x8192 : Shape := ⟨2, ![16, 8192]⟩
abbrev S8192x128 : Shape := ⟨2, ![8192, 128]⟩
abbrev S64x128 : Shape := ⟨2, ![64, 128]⟩
abbrev S64 : Shape := ⟨1, ![64]⟩
abbrev S1x64 : Shape := ⟨2, ![1, 64]⟩
abbrev S64x1 : Shape := ⟨2, ![64, 1]⟩
abbrev S64x8192 : Shape := ⟨2, ![64, 8192]⟩
abbrev S1024x8192 : Shape := ⟨2, ![1024, 8192]⟩
abbrev S16x1024 : Shape := ⟨2, ![16, 1024]⟩
abbrev S1024x128 : Shape := ⟨2, ![1024, 128]⟩
abbrev S1024x64 : Shape := ⟨2, ![1024, 64]⟩
abbrev S1024x1 : Shape := ⟨2, ![1024, 1]⟩
abbrev S64x1024 : Shape := ⟨2, ![64, 1024]⟩
abbrev S1024x1024 : Shape := ⟨2, ![1024, 1024]⟩
abbrev S1024 : Shape := ⟨1, ![1024]⟩
abbrev S1x1024 : Shape := ⟨2, ![1, 1024]⟩

abbrev nBuf : Space → Nat
  | .hbm => 9
  | .vmem => 12
  | .smem => 0
  | _ => 0

abbrev bufTy : (tb : Table) → Fin (tcTables nBuf tb) → BufTy
  | .hbm, ⟨0, _⟩ => ⟨S16x8192, .f32⟩
  | .hbm, ⟨1, _⟩ => ⟨S8192x128, .f32⟩
  | .hbm, ⟨2, _⟩ => ⟨S64x128, .f32⟩
  | .hbm, ⟨3, _⟩ => ⟨S64, .f32⟩
  | .hbm, ⟨4, _⟩ => ⟨S64x128, .f32⟩
  | .hbm, ⟨5, _⟩ => ⟨S64, .f32⟩
  | .hbm, ⟨6, _⟩ => ⟨S1x64, .f32⟩
  | .hbm, ⟨7, _⟩ => ⟨S64x1, .f32⟩
  | .hbm, ⟨8, _⟩ => ⟨S16x8192, .f32⟩
  | .local _ .vmem, ⟨0, _⟩ => ⟨S16x8192, .f32⟩
  | .local _ .vmem, ⟨1, _⟩ => ⟨S8192x128, .f32⟩
  | .local _ .vmem, ⟨2, _⟩ => ⟨S64x128, .f32⟩
  | .local _ .vmem, ⟨3, _⟩ => ⟨S1x64, .f32⟩
  | .local _ .vmem, ⟨4, _⟩ => ⟨S64x128, .f32⟩
  | .local _ .vmem, ⟨5, _⟩ => ⟨S64x1, .f32⟩
  | .local _ .vmem, ⟨6, _⟩ => ⟨S16x8192, .f32⟩
  | .local _ .vmem, ⟨7, _⟩ => ⟨S64x8192, .bf16⟩
  | .local _ .vmem, ⟨8, _⟩ => ⟨S1024x8192, .bf16⟩
  | .local _ .vmem, ⟨9, _⟩ => ⟨S1024x8192, .bf16⟩
  | .local _ .vmem, ⟨10, _⟩ => ⟨S16x1024, .bf16⟩
  | .local _ .vmem, ⟨11, _⟩ => ⟨S16x1024, .bf16⟩
  | _, _ => ⟨S16x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_scratch0 : Ref sig .tc := ⟨.vmem, 7, rfl⟩
abbrev cc0_scratch1 : Ref sig .tc := ⟨.vmem, 8, rfl⟩
abbrev cc0_scratch2 : Ref sig .tc := ⟨.vmem, 9, rfl⟩
abbrev cc0_scratch3 : Ref sig .tc := ⟨.vmem, 10, rfl⟩
abbrev cc0_scratch4 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c2_i32 : BitVec 32 := 2#32
  let v0 : BitVec 32 := Scalar.remsi arg0 c2_i32
  let c0_i32_1 : BitVec 32 := 0#32
  let v4 : BitVec 1 := Scalar.cmpi .eq v0 c0_i32_1
  let v5 : BitVec 32 := Scalar.extui v4
  let c0_i32_2 : BitVec 32 := 0#32
  let v6 : BitVec 1 := Scalar.cmpi .ne v5 c0_i32_2
  v6

def k0_off1 (i : grid0.Coords) : Fin 2 → Nat :=
  let arg0 : BitVec 32 := BitVec.ofNat 32 (i 0).val
  let c1024_i32 : BitVec 32 := 1024#32
  let v13 : BitVec 32 := Scalar.muli arg0 c1024_i32
  let v14 : Index := Scalar.indexCast v13
  let c0 : Index := 0#32
  ![v14.toNat, 0]
def k0_off2 (i : grid0.Coords) : Fin 2 → Nat :=
  let c0_124 : Index := 0#32
  let arg0 : BitVec 32 := BitVec.ofNat 32 (i 0).val
  let c1024_i32_123 : BitVec 32 := 1024#32
  let v161 : BitVec 32 := Scalar.muli arg0 c1024_i32_123
  let v162 : Index := Scalar.indexCast v161
  ![0, v162.toNat]
def k0_cond3 (i : grid0.Coords) : BitVec 1 :=
  let arg0 : BitVec 32 := BitVec.ofNat 32 (i 0).val
  let c2_i32 : BitVec 32 := 2#32
  let v0 : BitVec 32 := Scalar.remsi arg0 c2_i32
  let c1_i32 : BitVec 32 := 1#32
  let v7 : BitVec 1 := Scalar.cmpi .eq v0 c1_i32
  let v8 : BitVec 32 := Scalar.extui v7
  let c0_i32_3 : BitVec 32 := 0#32
  let v9 : BitVec 1 := Scalar.cmpi .ne v8 c0_i32_3
  v9

def k0_off3 (i : grid0.Coords) : Fin 2 → Nat :=
  let arg0 : BitVec 32 := BitVec.ofNat 32 (i 0).val
  let c1024_i32 : BitVec 32 := 1024#32
  let v13 : BitVec 32 := Scalar.muli arg0 c1024_i32
  let v14 : Index := Scalar.indexCast v13
  let c0 : Index := 0#32
  ![v14.toNat, 0]
def k0_off4 (i : grid0.Coords) : Fin 2 → Nat :=
  let c0_124 : Index := 0#32
  let arg0 : BitVec 32 := BitVec.ofNat 32 (i 0).val
  let c1024_i32_123 : BitVec 32 := 1024#32
  let v161 : BitVec 32 := Scalar.muli arg0 c1024_i32_123
  let v162 : Index := Scalar.indexCast v161
  ![0, v162.toNat]
def k0_cond1 (i : grid0.Coords) : BitVec 1 :=
  let arg0 : BitVec 32 := BitVec.ofNat 32 (i 0).val
  let c0_i32 : BitVec 32 := 0#32
  let v1 : BitVec 1 := Scalar.cmpi .eq arg0 c0_i32
  let v2 : BitVec 32 := Scalar.extui v1
  let c0_i32_0 : BitVec 32 := 0#32
  let v3 : BitVec 1 := Scalar.cmpi .ne v2 c0_i32_0
  v3

def k0_cond4 (i : grid0.Coords) : BitVec 1 :=
  let arg0 : BitVec 32 := BitVec.ofNat 32 (i 0).val
  let c7_i32 : BitVec 32 := 7#32
  let v10 : BitVec 1 := Scalar.cmpi .eq arg0 c7_i32
  let v11 : BitVec 32 := Scalar.extui v10
  let c0_i32_4 : BitVec 32 := 0#32
  let v12 : BitVec 1 := Scalar.cmpi .ne v11 c0_i32_4
  v12

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S8192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x8192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

class Facts₀ : Prop where
  shapeCasts_S64_S1x64 : S64.ShapeCasts S1x64
  shapeCasts_S64_S64x1 : S64.ShapeCasts S64x1
  inb_S64x128_S64x128_0_0 : ∀ a, (![0, 0] : Fin 2 → Nat) a + S64x128.size a ≤ S64x128.size a
  h_S64x128 : 0 < S64x128.numel
  inb_S8192x128_S8192x128_0_0 : ∀ a, (![0, 0] : Fin 2 → Nat) a + S8192x128.size a ≤ S8192x128.size a
  h_S8192x128 : 0 < S8192x128.numel
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x8192 : S64x1.Broadcasts S64x8192
  bitsLt_bf16_f32 : FTy.bits .bf16 < FTy.bits .f32
  inb_S64x8192_S64x8192_0_0 : ∀ a, (![0, 0] : Fin 2 → Nat) a + S64x8192.size a ≤ S64x8192.size a
  h_S64x8192 : 0 < S64x8192.numel
  shapeCasts_S64x8192_S64x8192 : S64x8192.ShapeCasts S64x8192
  packedbf16_S64x8192_S64x8192_0_0 : (Rect.unit (s := S64x8192) ![0, 0] S64x8192.size inb_S64x8192_S64x8192_0_0).PackedRows (EltTy.packing .bf16)
  inb_S16x8192_S16x8192_0_0 : ∀ a, (![0, 0] : Fin 2 → Nat) a + S16x8192.size a ≤ S16x8192.size a
  h_S16x8192 : 0 < S16x8192.numel
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  packedbf16_S16x1024_S16x1024_0_0 : (Rect.unit (s := S16x1024) ![0, 0] S16x1024.size inb_S16x1024_S16x1024_0_0).PackedRows (EltTy.packing .bf16)
  inb_S1024x8192_S1024x8192_0_0 : ∀ a, (![0, 0] : Fin 2 → Nat) a + S1024x8192.size a ≤ S1024x8192.size a
  h_S1024x8192 : 0 < S1024x8192.numel
  shapeCasts_S1024x8192_S1024x8192 : S1024x8192.ShapeCasts S1024x8192
  packedbf16_S1024x8192_S1024x8192_0_0 : (Rect.unit (s := S1024x8192) ![0, 0] S1024x8192.size inb_S1024x8192_S1024x8192_0_0).PackedRows (EltTy.packing .bf16)
  h_S1024x128 : 0 < S1024x128.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  inb_S64x8192_S64x1024_0_0 : ∀ a, (![0, 0] : Fin 2 → Nat) a + S64x1024.size a ≤ S64x8192.size a
  h_S64x1024 : 0 < S64x1024.numel
  reduces_S1024x1024_S1024 : S1024x1024.Reduces [1] S1024
  shapeCasts_S1024_S1024x1 : S1024.ShapeCasts S1024x1
  inb_S1024x8192_S1024x1024_0_0 : ∀ a, (![0, 0] : Fin 2 → Nat) a + S1024x1024.size a ≤ S1024x8192.size a
  h_S1024x1024 : 0 < S1024x1024.numel
  shapeCasts_S1024x1024_S1024x1024 : S1024x1024.ShapeCasts S1024x1024
  packedbf16_S1024x8192_S1024x1024_0_0 : (Rect.unit (s := S1024x8192) ![0, 0] S1024x1024.size inb_S1024x8192_S1024x1024_0_0).PackedRows (EltTy.packing .bf16)
  inb_S16x8192_S16x1024_0_0 : ∀ a, (![0, 0] : Fin 2 → Nat) a + S16x1024.size a ≤ S16x8192.size a
  inb_S64x8192_S64x1024_0_1024 : ∀ a, (![0, 1024] : Fin 2 → Nat) a + S64x1024.size a ≤ S64x8192.size a
  inb_S1024x8192_S1024x1024_0_1024 : ∀ a, (![0, 1024] : Fin 2 → Nat) a + S1024x1024.size a ≤ S1024x8192.size a
  packedbf16_S1024x8192_S1024x1024_0_1024 : (Rect.unit (s := S1024x8192) ![0, 1024] S1024x1024.size inb_S1024x8192_S1024x1024_0_1024).PackedRows (EltTy.packing .bf16)
  inb_S16x8192_S16x1024_0_1024 : ∀ a, (![0, 1024] : Fin 2 → Nat) a + S16x1024.size a ≤ S16x8192.size a
  inb_S64x8192_S64x1024_0_2048 : ∀ a, (![0, 2048] : Fin 2 → Nat) a + S64x1024.size a ≤ S64x8192.size a
  inb_S1024x8192_S1024x1024_0_2048 : ∀ a, (![0, 2048] : Fin 2 → Nat) a + S1024x1024.size a ≤ S1024x8192.size a
  packedbf16_S1024x8192_S1024x1024_0_2048 : (Rect.unit (s := S1024x8192) ![0, 2048] S1024x1024.size inb_S1024x8192_S1024x1024_0_2048).PackedRows (EltTy.packing .bf16)
  inb_S16x8192_S16x1024_0_2048 : ∀ a, (![0, 2048] : Fin 2 → Nat) a + S16x1024.size a ≤ S16x8192.size a
  inb_S64x8192_S64x1024_0_3072 : ∀ a, (![0, 3072] : Fin 2 → Nat) a + S64x1024.size a ≤ S64x8192.size a
  inb_S1024x8192_S1024x1024_0_3072 : ∀ a, (![0, 3072] : Fin 2 → Nat) a + S1024x1024.size a ≤ S1024x8192.size a
  packedbf16_S1024x8192_S1024x1024_0_3072 : (Rect.unit (s := S1024x8192) ![0, 3072] S1024x1024.size inb_S1024x8192_S1024x1024_0_3072).PackedRows (EltTy.packing .bf16)
  inb_S16x8192_S16x1024_0_3072 : ∀ a, (![0, 3072] : Fin 2 → Nat) a + S16x1024.size a ≤ S16x8192.size a
  inb_S64x8192_S64x1024_0_4096 : ∀ a, (![0, 4096] : Fin 2 → Nat) a + S64x1024.size a ≤ S64x8192.size a
  inb_S1024x8192_S1024x1024_0_4096 : ∀ a, (![0, 4096] : Fin 2 → Nat) a + S1024x1024.size a ≤ S1024x8192.size a
  packedbf16_S1024x8192_S1024x1024_0_4096 : (Rect.unit (s := S1024x8192) ![0, 4096] S1024x1024.size inb_S1024x8192_S1024x1024_0_4096).PackedRows (EltTy.packing .bf16)
  inb_S16x8192_S16x1024_0_4096 : ∀ a, (![0, 4096] : Fin 2 → Nat) a + S16x1024.size a ≤ S16x8192.size a
  inb_S64x8192_S64x1024_0_5120 : ∀ a, (![0, 5120] : Fin 2 → Nat) a + S64x1024.size a ≤ S64x8192.size a
  inb_S1024x8192_S1024x1024_0_5120 : ∀ a, (![0, 5120] : Fin 2 → Nat) a + S1024x1024.size a ≤ S1024x8192.size a
  packedbf16_S1024x8192_S1024x1024_0_5120 : (Rect.unit (s := S1024x8192) ![0, 5120] S1024x1024.size inb_S1024x8192_S1024x1024_0_5120).PackedRows (EltTy.packing .bf16)
  inb_S16x8192_S16x1024_0_5120 : ∀ a, (![0, 5120] : Fin 2 → Nat) a + S16x1024.size a ≤ S16x8192.size a
  inb_S64x8192_S64x1024_0_6144 : ∀ a, (![0, 6144] : Fin 2 → Nat) a + S64x1024.size a ≤ S64x8192.size a
  inb_S1024x8192_S1024x1024_0_6144 : ∀ a, (![0, 6144] : Fin 2 → Nat) a + S1024x1024.size a ≤ S1024x8192.size a
  packedbf16_S1024x8192_S1024x1024_0_6144 : (Rect.unit (s := S1024x8192) ![0, 6144] S1024x1024.size inb_S1024x8192_S1024x1024_0_6144).PackedRows (EltTy.packing .bf16)
  inb_S16x8192_S16x1024_0_6144 : ∀ a, (![0, 6144] : Fin 2 → Nat) a + S16x1024.size a ≤ S16x8192.size a
  inb_S64x8192_S64x1024_0_7168 : ∀ a, (![0, 7168] : Fin 2 → Nat) a + S64x1024.size a ≤ S64x8192.size a
  inb_S1024x8192_S1024x1024_0_7168 : ∀ a, (![0, 7168] : Fin 2 → Nat) a + S1024x1024.size a ≤ S1024x8192.size a
  packedbf16_S1024x8192_S1024x1024_0_7168 : (Rect.unit (s := S1024x8192) ![0, 7168] S1024x1024.size inb_S1024x8192_S1024x1024_0_7168).PackedRows (EltTy.packing .bf16)
  inb_S16x8192_S16x1024_0_7168 : ∀ a, (![0, 7168] : Fin 2 → Nat) a + S16x1024.size a ≤ S16x8192.size a
  transposes_S1024x1_p1_0_S1x1024 : S1024x1.Transposes [1, 0] S1x1024
  broadcasts_S1x1024_S16x1024 : S1x1024.Broadcasts S16x1024
  shapeCasts_S16x8192_S16x8192 : S16x8192.ShapeCasts S16x8192
  dot_S64x128_S8192x128_S64x8192_1_1_0_0_n_n_wf : DotDims.WF S64x128 S8192x128 S64x8192 [1] [1] [0] [0] [] []
  dot_S1024x128_S64x128_S1024x64_1_1_0_0_n_n_wf : DotDims.WF S1024x128 S64x128 S1024x64 [1] [1] [0] [0] [] []
  dot_S1024x64_S64x1024_S1024x1024_1_0_0_1_n_n_wf : DotDims.WF S1024x64 S64x1024 S1024x1024 [1] [0] [0] [1] [] []
  dot_S16x1024_S1024x1024_S16x1024_1_0_0_1_n_n_wf : DotDims.WF S16x1024 S1024x1024 S16x1024 [1] [0] [0] [1] [] []
  dot_S16x1024_S1024x8192_S16x8192_1_0_0_1_n_n_wf : DotDims.WF S16x1024 S1024x8192 S16x8192 [1] [0] [0] [1] [] []
  hrank0 : 0 < grid0.rank
  k0_off1_inb : ∀ i : grid0.Coords, ∀ (k0_h2 : k0_cond2 i = 1#1), ∀ a, (k0_off1 i) a + S1024x128.size a ≤ S8192x128.size a
  k0_off2_inb : ∀ i : grid0.Coords, ∀ (k0_h2 : k0_cond2 i = 1#1), ∀ a, (k0_off2 i) a + S16x1024.size a ≤ S16x8192.size a
  k0_off3_inb : ∀ i : grid0.Coords, ∀ (k0_h3 : k0_cond3 i = 1#1), ∀ a, (k0_off3 i) a + S1024x128.size a ≤ S8192x128.size a
  k0_off4_inb : ∀ i : grid0.Coords, ∀ (k0_h3 : k0_cond3 i = 1#1), ∀ a, (k0_off4 i) a + S16x1024.size a ≤ S16x8192.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S16x8192.size a ≤ S16x8192.size a
  hwx0_0 : ∀ i : grid0.Coords, EltTy.bits .f32 = 32 ∨ (Rect.block (s := S16x8192) S16x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .f32 = 32 ∨ (Rect.block (s := S8192x128) S8192x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x1.size a ≤ S64x1.size a
  hwx0_5 : ∀ i : grid0.Coords, EltTy.bits .f32 = 32 ∨ (Rect.block (s := S64x1) S64x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S16x8192.size a ≤ S16x8192.size a
  hwx0_6 : ∀ i : grid0.Coords, EltTy.bits .f32 = 32 ∨ (Rect.block (s := S16x8192) S16x8192.size (cc0_transform_6 i) (hinb0_6 i)).WholeWords (EltTy.packing .f32)

variable [Facts₀]

def dot_S64x128_S8192x128_S64x8192_1_1_0_0_n_n : DotDims S64x128 S8192x128 S64x8192 where
  lhsContracting := [1]
  rhsContracting := [1]
  lhsNonContracting := [0]
  rhsNonContracting := [0]
  lhsBatch := []
  rhsBatch := []
  wf := dot_S64x128_S8192x128_S64x8192_1_1_0_0_n_n_wf
def dot_S1024x128_S64x128_S1024x64_1_1_0_0_n_n : DotDims S1024x128 S64x128 S1024x64 where
  lhsContracting := [1]
  rhsContracting := [1]
  lhsNonContracting := [0]
  rhsNonContracting := [0]
  lhsBatch := []
  rhsBatch := []
  wf := dot_S1024x128_S64x128_S1024x64_1_1_0_0_n_n_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf
def dot_S16x1024_S1024x1024_S16x1024_1_0_0_1_n_n : DotDims S16x1024 S1024x1024 S16x1024 where
  lhsContracting := [1]
  rhsContracting := [0]
  lhsNonContracting := [0]
  rhsNonContracting := [1]
  lhsBatch := []
  rhsBatch := []
  wf := dot_S16x1024_S1024x1024_S16x1024_1_0_0_1_n_n_wf
def dot_S16x1024_S1024x8192_S16x8192_1_0_0_1_n_n : DotDims S16x1024 S1024x8192 S16x8192 where
  lhsContracting := [1]
  rhsContracting := [0]
  lhsNonContracting := [0]
  rhsNonContracting := [1]
  lhsBatch := []
  rhsBatch := []
  wf := dot_S16x1024_S1024x8192_S16x8192_1_0_0_1_n_n_wf

abbrev win0_0 : Pipeline.Window sig grid0 :=
  Pipeline.Window.ofSpec (Memref.whole main_arg0) S16x8192.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S64x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S16x8192.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond1 i == 1#1) && !(k0_cond2 i == 1#1) && !(k0_cond3 i == 1#1) && !(k0_cond4 i == 1#1) | ⟨_ + 7, h⟩ => absurd h (Nat.not_lt.2 (Nat.le_add_left _ _))

class Facts : Prop extends Facts₀ where

variable [Facts]
-- ==== ReferenceIdeal.lean ====
abbrev S16x8192 : Shape := ⟨2, ![16, 8192]⟩
abbrev S8192x128 : Shape := ⟨2, ![8192, 128]⟩
abbrev S64x128 : Shape := ⟨2, ![64, 128]⟩
abbrev S64 : Shape := ⟨1, ![64]⟩
abbrev S128x64 : Shape := ⟨2, ![128, 64]⟩
abbrev S8192x64 : Shape := ⟨2, ![8192, 64]⟩
abbrev S1x64 : Shape := ⟨2, ![1, 64]⟩
abbrev S64x8192 : Shape := ⟨2, ![64, 8192]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩

abbrev nBuf : Space → Nat
  | .hbm => 33
  | .vmem => 0
  | .smem => 0
  | _ => 0

abbrev bufTy : (tb : Table) → Fin (tcTables nBuf tb) → BufTy
  | .hbm, ⟨0, _⟩ => ⟨S16x8192, .f32⟩
  | .hbm, ⟨1, _⟩ => ⟨S8192x128, .f32⟩
  | .hbm, ⟨2, _⟩ => ⟨S64x128, .f32⟩
  | .hbm, ⟨3, _⟩ => ⟨S64, .f32⟩
  | .hbm, ⟨4, _⟩ => ⟨S64x128, .f32⟩
  | .hbm, ⟨5, _⟩ => ⟨S64, .f32⟩
  | .hbm, ⟨6, _⟩ => ⟨S128x64, .f32⟩
  | .hbm, ⟨7, _⟩ => ⟨S8192x64, .f32⟩
  | .hbm, ⟨8, _⟩ => ⟨S1x64, .f32⟩
  | .hbm, ⟨9, _⟩ => ⟨S8192x64, .f32⟩
  | .hbm, ⟨10, _⟩ => ⟨S8192x64, .f32⟩
  | .hbm, ⟨11, _⟩ => ⟨S128x64, .f32⟩
  | .hbm, ⟨12, _⟩ => ⟨S8192x64, .f32⟩
  | .hbm, ⟨13, _⟩ => ⟨S1x64, .f32⟩
  | .hbm, ⟨14, _⟩ => ⟨S8192x64, .f32⟩
  | .hbm, ⟨15, _⟩ => ⟨S8192x64, .f32⟩
  | .hbm, ⟨16, _⟩ => ⟨S64x8192, .f32⟩
  | .hbm, ⟨17, _⟩ => ⟨S8192x8192, .f32⟩
  | .hbm, ⟨18, _⟩ => ⟨S_, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192x1, .f32⟩
  | .hbm, ⟨24, _⟩ => ⟨S8192x8192, .f32⟩
  | .hbm, ⟨25, _⟩ => ⟨S8192x8192, .f32⟩
  | .hbm, ⟨26, _⟩ => ⟨S8192x8192, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S8192x8192, .f32⟩
  | .hbm, ⟨31, _⟩ => ⟨S8192x8192, .f32⟩
  | .hbm, ⟨32, _⟩ => ⟨S16x8192, .f32⟩
  | _, _ => ⟨S16x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]

class Facts₀ : Prop where
  transposes_S64x128_S128x64_1_0 : S64x128.Transposes [1, 0] S128x64
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  transposes_S8192x64_S64x8192_1_0 : S8192x64.Transposes [1, 0] S64x8192
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  dot_S8192x128_S128x64_S8192x64_1_0_0_1_n_n_wf : DotDims.WF S8192x128 S128x64 S8192x64 [1] [0] [0] [1] [] []
  dot_S8192x64_S64x8192_S8192x8192_1_0_0_1_n_n_wf : DotDims.WF S8192x64 S64x8192 S8192x8192 [1] [0] [0] [1] [] []
  dot_S16x8192_S8192x8192_S16x8192_1_0_0_1_n_n_wf : DotDims.WF S16x8192 S8192x8192 S16x8192 [1] [0] [0] [1] [] []

variable [Facts₀]

def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf
def dot_S16x8192_S8192x8192_S16x8192_1_0_0_1_n_n : DotDims S16x8192 S8192x8192 S16x8192 where
  lhsContracting := [1]
  rhsContracting := [0]
  lhsNonContracting := [0]
  rhsNonContracting := [1]
  lhsBatch := []
  rhsBatch := []
  wf := dot_S16x8192_S8192x8192_S16x8192_1_0_0_1_n_n_wf

class Facts : Prop extends Facts₀ where

variable [Facts]
-- ==== Proof.Spec.lean ====
import Idealize.ShloMosaic.PureOps.Ideal

noncomputable section

namespace Cert.Spec

open Idealize.ShloMosaic

variable (b : Fin 16 → Fin 8192 → EReal) (e : Fin 8192 → Fin 128 → EReal)
  (Wk : Fin 64 → Fin 128 → EReal) (bk : Fin 64 → EReal) (Wq : Fin 64 → Fin 128 → EReal) (bq : Fin 64 → EReal)

/-- The propagated belief: beliefs weighted by the rows of the transition matrix, which are the row-normalised exponentials of the products of queries and keys. -/
def keyT (h : Fin 64) (s : Fin 8192) : EReal := (∑ d : Fin 128, Wk h d * e s d) + bk h

def query (s : Fin 8192) (h : Fin 64) : EReal := (∑ d : Fin 128, e s d * Wq h d) + bq h

def logit (s j : Fin 8192) : EReal := ∑ h : Fin 64, query e Wq bq s h * keyT e Wk bk h j

def expo (s j : Fin 8192) : EReal := Ideal.exp (logit e Wk bk Wq bq s j)

def rowsum (s : Fin 8192) : EReal := ∑ j : Fin 8192, expo e Wk bk Wq bq s j

def weight (a : Fin 16) (s : Fin 8192) : EReal := Ideal.div (b a s) (rowsum e Wk bk Wq bq s)

def out (a : Fin 16) (j : Fin 8192) : EReal := ∑ s : Fin 8192, weight b e Wk bk Wq bq a s * expo e Wk bk Wq bq s j

end Cert.Spec

end
-- ==== Proof.K.Conds.lean ====
/-
  The kernel body's four branch conditions as facts about the grid position, and the buffers the body is
  handed at a point.

  The body branches on: (0) the point is the first; (1) the point is even; (2) the point is odd; (3) the point is
  the last. Over the eight points exactly four combinations occur: first and even; even, not first; odd, not
  last; odd and last. Beside the seven pipelined windows (six inputs, one output revisited at every point) the
  body owns five scratch buffers for the whole launch: the transposed keys, two slabs of exponentials and two
  blocks of weights.
-/
import proofs.«137864_g5935644803188_cont_9to1c4b_610_18_alg».proof.Proof.Gen.Kernel.Frame
import proofs.«137864_g5935644803188_cont_9to1c4b_610_18_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The point is the first one. -/
abbrev cond0 (i : grid0.Coords) : Prop := k0_cond1 i = 1#1
theorem hcond0 : ∀ t : Fin cfg0.N, cond0 (grid0.coords t) ↔ t.val % 8 = 0 :=
  (by decide +kernel : ∀ t : Fin grid0.N, cond0 (grid0.coords t) ↔ t.val % 8 = 0)

/-- The point is even. -/
abbrev cond1 (i : grid0.Coords) : Prop := k0_cond2 i = 1#1
theorem hcond1 : ∀ t : Fin cfg0.N, cond1 (grid0.coords t) ↔ t.val % 2 = 0 :=
  (by decide +kernel : ∀ t : Fin grid0.N, cond1 (grid0.coords t) ↔ t.val % 2 = 0)

/-- The point is odd. -/
abbrev cond2 (i : grid0.Coords) : Prop := k0_cond3 i = 1#1
theorem hcond2 : ∀ t : Fin cfg0.N, cond2 (grid0.coords t) ↔ t.val % 2 = 1 :=
  (by decide +kernel : ∀ t : Fin grid0.N, cond2 (grid0.coords t) ↔ t.val % 2 = 1)

/-- The point is the last one. -/
abbrev cond3 (i : grid0.Coords) : Prop := k0_cond4 i = 1#1
theorem hcond3 : ∀ t : Fin cfg0.N, cond3 (grid0.coords t) ↔ t.val % 8 = 7 :=
  (by decide +kernel : ∀ t : Fin grid0.N, cond3 (grid0.coords t) ↔ t.val % 8 = 7)

/-- No window is idle at any point: every point is even or odd, so the output is stored into at every point. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel

/-- Each window's staging buffer at a point, and that it is a whole buffer. -/
abbrev ms0 (t : Fin cfg0.N) : Memref sig .tc .vmem S16x8192 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8192x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S64x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x64 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S64x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S64x1 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S16x8192 .f32 := win0_6.stage (cfg0.slots t 6)
abbrev hs6 (t : Fin cfg0.N) : (ms6 t).IsWhole := hstage0_6 ((cfg0.slots t 6).cast nbuf0_6)

/-- The five scratch buffers: transposed keys; exponentials of the even and of the odd slabs; weights of the even
    and of the odd slabs. -/
abbrev scK : Memref sig .tc .vmem S64x8192 .bf16 := Memref.whole cc0_scratch0
abbrev scPa : Memref sig .tc .vmem S1024x8192 .bf16 := Memref.whole cc0_scratch1
abbrev scPb : Memref sig .tc .vmem S1024x8192 .bf16 := Memref.whole cc0_scratch2
abbrev scWa : Memref sig .tc .vmem S16x1024 .bf16 := Memref.whole cc0_scratch3
abbrev scWb : Memref sig .tc .vmem S16x1024 .bf16 := Memref.whole cc0_scratch4

/-- Views through which the contents of the output's staging buffer and of the scratch buffers are stated. -/
abbrev VO : View sig .tc .vmem S16x8192 .f32 := (Memref.whole cc0_stg6_0 : Memref sig .tc .vmem S16x8192 .f32).view
abbrev VK : View sig .tc .vmem S64x8192 .bf16 := scK.view
abbrev VPa : View sig .tc .vmem S1024x8192 .bf16 := scPa.view
abbrev VPb : View sig .tc .vmem S1024x8192 .bf16 := scPb.view
abbrev VWa : View sig .tc .vmem S16x1024 .bf16 := scWa.view
abbrev VWb : View sig .tc .vmem S16x1024 .bf16 := scWb.view

/-- What the launch hands the region beside the windows: the five scratch buffers at some contents and the
    generator register at some state. -/
theorem PhiA_eq (c : Dev nD) :
    (Pipeline.ΦA spec0 c : sProp 𝕄)
      = iprop(iprop((∃ d, owns (c : Thread nD τ) scK fullShare d) ∗ (∃ d, owns (c : Thread nD τ) scPa fullShare d) ∗ (∃ d, owns (c : Thread nD τ) scPb fullShare d) ∗ (∃ d, owns (c : Thread nD τ) scWa fullShare d) ∗ (∃ d, owns (c : Thread nD τ) scWb fullShare d)) ∗ (∃ r, prngReg c r)) := by
  unfold Pipeline.ΦA; rw [scopedRest0_eq]; simp only [scK, scPa, scPb, scWa, scWb, owns_whole]; try rfl

end Cert.Kernel.Body

end
-- ==== Proof.K.RunA.lean ====
/-
  The body at the first point: the transposed keys are computed and stored, the output and the odd pair of
  scratch buffers are zeroed, then the point's slab of exponentials and its weights are produced into the even
  pair while the (zero) odd pair is contracted into the output, column chunk by column chunk.
-/
import proofs.«137864_g5935644803188_cont_9to1c4b_610_18_alg».proof.Proof.K.Conds

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run in this case, on whole buffers: the six inputs at their blocks; each buffer the case reads at
    its contents; the body runs to the end holding the inputs as they were, every buffer it only reads as it
    was, and every buffer it stores into with the case's stores written, as pieces, last store first. -/
noncomputable def runA (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S1024x8192 .bf16) (harg9 : arg9.IsWhole) (arg10 : Memref sig .tc .vmem S1024x8192 .bf16) (harg10 : arg10.IsWhole) (arg11 : Memref sig .tc .vmem S16x1024 .bf16) (harg11 : arg11.IsWhole) (arg12 : Memref sig .tc .vmem S16x1024 .bf16) (harg12 : arg12.IsWhole) (hc0 : cond0 i) (hc1 : cond1 i) (hc2 : ¬cond2 i) (hc3 : ¬cond3 i)
    (x0 : Vec F S16x8192 .f32) (x1 : Vec F S8192x128 .f32) (x2 : Vec F S64x128 .f32) (x3 : Vec F S1x64 .f32) (x4 : Vec F S64x128 .f32) (x5 : Vec F S64x1 .f32)  :
    Σ' (L7 : List (View.Piece (Elt F) S16x8192 .f32)) (L8 : List (View.Piece (Elt F) S64x8192 .bf16)) (L9 : List (View.Piece (Elt F) S1024x8192 .bf16)) (L10 : List (View.Piece (Elt F) S1024x8192 .bf16)) (L11 : List (View.Piece (Elt F) S16x1024 .bf16)), { L12 : List (View.Piece (Elt F) S16x1024 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12)) -∗ K ⟨⟩))
          ⊢ wp frame (wpE (defs₀ (F := F)) Variants.none c none) E (cc0__fused_body i arg1 harg1 arg2 harg2 arg3 harg3 arg4 harg4 arg5 harg5 arg6 harg6 arg7 harg7 arg8 harg8 arg9 harg9 arg10 harg10 arg11 harg11 arg12 harg12) K } := by
  refine ⟨?_, ?_, ?_, ?_, ?_, ?_, fun E K => ?run⟩
  case run =>
    simp only [cc0__fused_body_eq_skeleton]; unfold cc0__fused_body_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0 | exact hc1 | exact hc2 | exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H7]
    · iexists _; iexact H7
    isplitl [H8]
    · iexists _; iexact H8
    isplitl [H9]
    · iexists _; iexact H9
    isplitl [H10]
    · iexists _; iexact H10
    isplitl [H11]
    · iexists _; iexact H11
    iexists _; iexact H12

end Cert.Kernel.Body

end
-- ==== Proof.K.RunB.lean ====
/-
  The body at an odd point that is not the last: the slab of exponentials and its weights are produced into the
  odd pair of scratch buffers from the transposed keys, while the even pair, left by the point before, is
  contracted into the output, column chunk by column chunk.
-/
import proofs.«137864_g5935644803188_cont_9to1c4b_610_18_alg».proof.Proof.K.Conds

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run in this case, on whole buffers: the six inputs at their blocks; each buffer the case reads at
    its contents; the body runs to the end holding the inputs as they were, every buffer it only reads as it
    was, and every buffer it stores into with the case's stores written, as pieces, last store first. -/
noncomputable def runB (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S1024x8192 .bf16) (harg9 : arg9.IsWhole) (arg10 : Memref sig .tc .vmem S1024x8192 .bf16) (harg10 : arg10.IsWhole) (arg11 : Memref sig .tc .vmem S16x1024 .bf16) (harg11 : arg11.IsWhole) (arg12 : Memref sig .tc .vmem S16x1024 .bf16) (harg12 : arg12.IsWhole) (hc0 : ¬cond0 i) (hc1 : ¬cond1 i) (hc2 : cond2 i) (hc3 : ¬cond3 i)
    (x0 : Vec F S16x8192 .f32) (x1 : Vec F S8192x128 .f32) (x2 : Vec F S64x128 .f32) (x3 : Vec F S1x64 .f32) (x4 : Vec F S64x128 .f32) (x5 : Vec F S64x1 .f32) (xo : Vec F S16x8192 .f32) (xk : Vec F S64x8192 .bf16) (xpa : Vec F S1024x8192 .bf16) (xpb : Vec F S1024x8192 .bf16) (xwa : Vec F S16x1024 .bf16) (xwb : Vec F S16x1024 .bf16) :
    Σ' (L7 : List (View.Piece (Elt F) S16x8192 .f32)) (L10 : List (View.Piece (Elt F) S1024x8192 .bf16)), { L12 : List (View.Piece (Elt F) S16x1024 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xo ∗ owns (c : Thread nD τ) arg8 fullShare xk ∗ owns (c : Thread nD τ) arg9 fullShare xpa ∗ owns (c : Thread nD τ) arg10 fullShare xpb ∗ owns (c : Thread nD τ) arg11 fullShare xwa ∗ owns (c : Thread nD τ) arg12 fullShare xwb
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L7) ∗ owns (c : Thread nD τ) arg8 fullShare xk ∗ owns (c : Thread nD τ) arg9 fullShare xpa ∗ (∃ f, arg10.view.loc (c : Thread nD τ) ↦[arg10.view.set]{fullShare} arg10.view.writes (Elt F) f L10) ∗ owns (c : Thread nD τ) arg11 fullShare xwa ∗ (∃ f, arg12.view.loc (c : Thread nD τ) ↦[arg12.view.set]{fullShare} arg12.view.writes (Elt F) f L12)) -∗ K ⟨⟩))
          ⊢ wp frame (wpE (defs₀ (F := F)) Variants.none c none) E (cc0__fused_body i arg1 harg1 arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0__fused_body_eq_skeleton]; unfold cc0__fused_body_skel
    simp only [k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf7; obtain rfl := harg8.eq_unread hf8; obtain rfl := harg9.eq_unread hf9; obtain rfl := harg10.eq_unread hf10; obtain rfl := harg11.eq_unread hf11; obtain rfl := harg12.eq_unread hf12
    sl_exec (disch := first | exact hc0 | exact hc1 | exact hc2 | exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H7]
    · iexists _; iexact H7
    isplitl [H8]
    · iexists _; isplitr; · ipureintro; exact harg8.read_unread _
      iexact H8
    isplitl [H9]
    · iexists _; isplitr; · ipureintro; exact harg9.read_unread _
      iexact H9
    isplitl [H10]
    · iexists _; iexact H10
    isplitl [H11]
    · iexists _; isplitr; · ipureintro; exact harg11.read_unread _
      iexact H11
    iexists _; iexact H12

end Cert.Kernel.Body

end
-- ==== Proof.K.RunC.lean ====
/-
  The body at an even point that is not the first: the slab of exponentials and its weights are produced into the
  even pair of scratch buffers from the transposed keys, while the odd pair, left by the point before, is
  contracted into the output, column chunk by column chunk.
-/
import proofs.«137864_g5935644803188_cont_9to1c4b_610_18_alg».proof.Proof.K.Conds

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run in this case, on whole buffers: the six inputs at their blocks; each buffer the case reads at
    its contents; the body runs to the end holding the inputs as they were, every buffer it only reads as it
    was, and every buffer it stores into with the case's stores written, as pieces, last store first. -/
noncomputable def runC (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S1024x8192 .bf16) (harg9 : arg9.IsWhole) (arg10 : Memref sig .tc .vmem S1024x8192 .bf16) (harg10 : arg10.IsWhole) (arg11 : Memref sig .tc .vmem S16x1024 .bf16) (harg11 : arg11.IsWhole) (arg12 : Memref sig .tc .vmem S16x1024 .bf16) (harg12 : arg12.IsWhole) (hc0 : ¬cond0 i) (hc1 : cond1 i) (hc2 : ¬cond2 i) (hc3 : ¬cond3 i)
    (x0 : Vec F S16x8192 .f32) (x1 : Vec F S8192x128 .f32) (x2 : Vec F S64x128 .f32) (x3 : Vec F S1x64 .f32) (x4 : Vec F S64x128 .f32) (x5 : Vec F S64x1 .f32) (xo : Vec F S16x8192 .f32) (xk : Vec F S64x8192 .bf16) (xpa : Vec F S1024x8192 .bf16) (xpb : Vec F S1024x8192 .bf16) (xwa : Vec F S16x1024 .bf16) (xwb : Vec F S16x1024 .bf16) :
    Σ' (L7 : List (View.Piece (Elt F) S16x8192 .f32)) (L9 : List (View.Piece (Elt F) S1024x8192 .bf16)), { L11 : List (View.Piece (Elt F) S16x1024 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xo ∗ owns (c : Thread nD τ) arg8 fullShare xk ∗ owns (c : Thread nD τ) arg9 fullShare xpa ∗ owns (c : Thread nD τ) arg10 fullShare xpb ∗ owns (c : Thread nD τ) arg11 fullShare xwa ∗ owns (c : Thread nD τ) arg12 fullShare xwb
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L7) ∗ owns (c : Thread nD τ) arg8 fullShare xk ∗ (∃ f, arg9.view.loc (c : Thread nD τ) ↦[arg9.view.set]{fullShare} arg9.view.writes (Elt F) f L9) ∗ owns (c : Thread nD τ) arg10 fullShare xpb ∗ (∃ f, arg11.view.loc (c : Thread nD τ) ↦[arg11.view.set]{fullShare} arg11.view.writes (Elt F) f L11) ∗ owns (c : Thread nD τ) arg12 fullShare xwb) -∗ K ⟨⟩))
          ⊢ wp frame (wpE (defs₀ (F := F)) Variants.none c none) E (cc0__fused_body i arg1 harg1 arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0__fused_body_eq_skeleton]; unfold cc0__fused_body_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf7; obtain rfl := harg8.eq_unread hf8; obtain rfl := harg9.eq_unread hf9; obtain rfl := harg10.eq_unread hf10; obtain rfl := harg11.eq_unread hf11; obtain rfl := harg12.eq_unread hf12
    sl_exec (disch := first | exact hc0 | exact hc1 | exact hc2 | exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H7]
    · iexists _; iexact H7
    isplitl [H8]
    · iexists _; isplitr; · ipureintro; exact harg8.read_unread _
      iexact H8
    isplitl [H9]
    · iexists _; iexact H9
    isplitl [H10]
    · iexists _; isplitr; · ipureintro; exact harg10.read_unread _
      iexact H10
    isplitl [H11]
    · iexists _; iexact H11
    iexists _; isplitr; · ipureintro; exact harg12.read_unread _
    iexact H12

end Cert.Kernel.Body

end
-- ==== Proof.K.RunD.lean ====
/-
  The body at the last point, which is odd: as at any odd point, and then the odd pair just produced is itself
  contracted into the output, whole.
-/
import proofs.«137864_g5935644803188_cont_9to1c4b_610_18_alg».proof.Proof.K.Conds

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run in this case, on whole buffers: the six inputs at their blocks; each buffer the case reads at
    its contents; the body runs to the end holding the inputs as they were, every buffer it only reads as it
    was, and every buffer it stores into with the case's stores written, as pieces, last store first. -/
noncomputable def runD (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S1024x8192 .bf16) (harg9 : arg9.IsWhole) (arg10 : Memref sig .tc .vmem S1024x8192 .bf16) (harg10 : arg10.IsWhole) (arg11 : Memref sig .tc .vmem S16x1024 .bf16) (harg11 : arg11.IsWhole) (arg12 : Memref sig .tc .vmem S16x1024 .bf16) (harg12 : arg12.IsWhole) (hc0 : ¬cond0 i) (hc1 : ¬cond1 i) (hc2 : cond2 i) (hc3 : cond3 i)
    (x0 : Vec F S16x8192 .f32) (x1 : Vec F S8192x128 .f32) (x2 : Vec F S64x128 .f32) (x3 : Vec F S1x64 .f32) (x4 : Vec F S64x128 .f32) (x5 : Vec F S64x1 .f32) (xo : Vec F S16x8192 .f32) (xk : Vec F S64x8192 .bf16) (xpa : Vec F S1024x8192 .bf16) (xpb : Vec F S1024x8192 .bf16) (xwa : Vec F S16x1024 .bf16) (xwb : Vec F S16x1024 .bf16) :
    Σ' (L7 : List (View.Piece (Elt F) S16x8192 .f32)) (L10 : List (View.Piece (Elt F) S1024x8192 .bf16)), { L12 : List (View.Piece (Elt F) S16x1024 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xo ∗ owns (c : Thread nD τ) arg8 fullShare xk ∗ owns (c : Thread nD τ) arg9 fullShare xpa ∗ owns (c : Thread nD τ) arg10 fullShare xpb ∗ owns (c : Thread nD τ) arg11 fullShare xwa ∗ owns (c : Thread nD τ) arg12 fullShare xwb
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L7) ∗ owns (c : Thread nD τ) arg8 fullShare xk ∗ owns (c : Thread nD τ) arg9 fullShare xpa ∗ (∃ f, arg10.view.loc (c : Thread nD τ) ↦[arg10.view.set]{fullShare} arg10.view.writes (Elt F) f L10) ∗ owns (c : Thread nD τ) arg11 fullShare xwa ∗ (∃ f, arg12.view.loc (c : Thread nD τ) ↦[arg12.view.set]{fullShare} arg12.view.writes (Elt F) f L12)) -∗ K ⟨⟩))
          ⊢ wp frame (wpE (defs₀ (F := F)) Variants.none c none) E (cc0__fused_body i arg1 harg1 arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0__fused_body_eq_skeleton]; unfold cc0__fused_body_skel
    simp only [k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf7; obtain rfl := harg8.eq_unread hf8; obtain rfl := harg9.eq_unread hf9; obtain rfl := harg10.eq_unread hf10; obtain rfl := harg11.eq_unread hf11; obtain rfl := harg12.eq_unread hf12
    sl_exec (disch := first | exact hc0 | exact hc1 | exact hc2 | exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H7]
    · iexists _; iexact H7
    isplitl [H8]
    · iexists _; isplitr; · ipureintro; exact harg8.read_unread _
      iexact H8
    isplitl [H9]
    · iexists _; isplitr; · ipureintro; exact harg9.read_unread _
      iexact H9
    isplitl [H10]
    · iexists _; iexact H10
    isplitl [H11]
    · iexists _; isplitr; · ipureintro; exact harg11.read_unread _
      iexact H11
    iexists _; iexact H12

end Cert.Kernel.Body

end
-- ==== Proof.K.Point.lean ====
import proofs.«137864_g5935644803188_cont_9to1c4b_610_18_alg».proof.Proof.K.RunA
import proofs.«137864_g5935644803188_cont_9to1c4b_610_18_alg».proof.Proof.K.RunB
import proofs.«137864_g5935644803188_cont_9to1c4b_610_18_alg».proof.Proof.K.RunC
import proofs.«137864_g5935644803188_cont_9to1c4b_610_18_alg».proof.Proof.K.RunD

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option genInjectivity false
set_option genSizeOfSpec false

/-- What the body is handed at a point: the core, the grid position, twelve whole buffers, six input blocks. -/
structure Args (F : FTy → Type) [FloatOps F] where
  c : Dev nD
  i : grid0.Coords
  a1 : Memref sig .tc .vmem S16x8192 .f32
  h1 : a1.IsWhole
  a2 : Memref sig .tc .vmem S8192x128 .f32
  h2 : a2.IsWhole
  a3 : Memref sig .tc .vmem S64x128 .f32
  h3 : a3.IsWhole
  a4 : Memref sig .tc .vmem S1x64 .f32
  h4 : a4.IsWhole
  a5 : Memref sig .tc .vmem S64x128 .f32
  h5 : a5.IsWhole
  a6 : Memref sig .tc .vmem S64x1 .f32
  h6 : a6.IsWhole
  a7 : Memref sig .tc .vmem S16x8192 .f32
  h7 : a7.IsWhole
  a8 : Memref sig .tc .vmem S64x8192 .bf16
  h8 : a8.IsWhole
  a9 : Memref sig .tc .vmem S1024x8192 .bf16
  h9 : a9.IsWhole
  a10 : Memref sig .tc .vmem S1024x8192 .bf16
  h10 : a10.IsWhole
  a11 : Memref sig .tc .vmem S16x1024 .bf16
  h11 : a11.IsWhole
  a12 : Memref sig .tc .vmem S16x1024 .bf16
  h12 : a12.IsWhole
  x0 : Vec F S16x8192 .f32
  x1 : Vec F S8192x128 .f32
  x2 : Vec F S64x128 .f32
  x3 : Vec F S1x64 .f32
  x4 : Vec F S64x128 .f32
  x5 : Vec F S64x1 .f32

/-- The contents of the six buffers carried from point to point. -/
structure St (F : FTy → Type) [FloatOps F] where
  out : Vec F S16x8192 .f32
  kt : Vec F S64x8192 .bf16
  pa : Vec F S1024x8192 .bf16
  pb : Vec F S1024x8192 .bf16
  wa : Vec F S16x1024 .bf16
  wb : Vec F S16x1024 .bf16

/-- The four combinations of the branch conditions that occur: first; odd, not last; even, not first; last. -/
abbrev CA (i : grid0.Coords) : Prop := cond0 i ∧ cond1 i ∧ ¬cond2 i ∧ ¬cond3 i
abbrev CB (i : grid0.Coords) : Prop := ¬cond0 i ∧ ¬cond1 i ∧ cond2 i ∧ ¬cond3 i
abbrev CC (i : grid0.Coords) : Prop := ¬cond0 i ∧ cond1 i ∧ ¬cond2 i ∧ ¬cond3 i
abbrev CD (i : grid0.Coords) : Prop := ¬cond0 i ∧ ¬cond1 i ∧ cond2 i ∧ cond3 i

abbrev rA (a : Args F) (h : CA a.i) := runA a.c a.i a.a1 a.h1 a.a2 a.h2 a.a3 a.h3 a.a4 a.h4 a.a5 a.h5 a.a6 a.h6 a.a7 a.h7 a.a8 a.h8 a.a9 a.h9 a.a10 a.h10 a.a11 a.h11 a.a12 a.h12 h.1 h.2.1 h.2.2.1 h.2.2.2 a.x0 a.x1 a.x2 a.x3 a.x4 a.x5
abbrev rB (a : Args F) (h : CB a.i) (p : St F) := runB a.c a.i a.a1 a.h1 a.a2 a.h2 a.a3 a.h3 a.a4 a.h4 a.a5 a.h5 a.a6 a.h6 a.a7 a.h7 a.a8 a.h8 a.a9 a.h9 a.a10 a.h10 a.a11 a.h11 a.a12 a.h12 h.1 h.2.1 h.2.2.1 h.2.2.2 a.x0 a.x1 a.x2 a.x3 a.x4 a.x5 p.out p.kt p.pa p.pb p.wa p.wb
abbrev rC (a : Args F) (h : CC a.i) (p : St F) := runC a.c a.i a.a1 a.h1 a.a2 a.h2 a.a3 a.h3 a.a4 a.h4 a.a5 a.h5 a.a6 a.h6 a.a7 a.h7 a.a8 a.h8 a.a9 a.h9 a.a10 a.h10 a.a11 a.h11 a.a12 a.h12 h.1 h.2.1 h.2.2.1 h.2.2.2 a.x0 a.x1 a.x2 a.x3 a.x4 a.x5 p.out p.kt p.pa p.pb p.wa p.wb
abbrev rD (a : Args F) (h : CD a.i) (p : St F) := runD a.c a.i a.a1 a.h1 a.a2 a.h2 a.a3 a.h3 a.a4 a.h4 a.a5 a.h5 a.a6 a.h6 a.a7 a.h7 a.a8 a.h8 a.a9 a.h9 a.a10 a.h10 a.a11 a.h11 a.a12 a.h12 h.1 h.2.1 h.2.2.1 h.2.2.2 a.x0 a.x1 a.x2 a.x3 a.x4 a.x5 p.out p.kt p.pa p.pb p.wa p.wb

/-- Pieces of one size that tile a buffer cover it. -/
theorem coverA_out (a : Args F) (h : CA a.i) (y : S16x8192.Idx) : ∃ pc ∈ (rA a h).1, y ∈ pc.1.set :=
  View.cover_of_tiledL (rA a h).1 S16x1024.size (by sl_kernel_rfl) y

theorem coverA_kt (a : Args F) (h : CA a.i) (y : S64x8192.Idx) : ∃ pc ∈ (rA a h).2.1, y ∈ pc.1.set :=
  View.cover_of_tiledL (rA a h).2.1 S64x8192.size (by sl_kernel_rfl) y

theorem coverA_pa (a : Args F) (h : CA a.i) (y : S1024x8192.Idx) : ∃ pc ∈ (rA a h).2.2.1, y ∈ pc.1.set :=
  View.cover_of_tiledL (rA a h).2.2.1 S1024x1024.size (by sl_kernel_rfl) y

theorem coverA_pb (a : Args F) (h : CA a.i) (y : S1024x8192.Idx) : ∃ pc ∈ (rA a h).2.2.2.1, y ∈ pc.1.set :=
  View.cover_of_tiledL (rA a h).2.2.2.1 S1024x8192.size (by sl_kernel_rfl) y

theorem coverA_wa (a : Args F) (h : CA a.i) (y : S16x1024.Idx) : ∃ pc ∈ (rA a h).2.2.2.2.1, y ∈ pc.1.set :=
  View.cover_of_tiledL (rA a h).2.2.2.2.1 S16x1024.size (by sl_kernel_rfl) y

theorem coverA_wb (a : Args F) (h : CA a.i) (y : S16x1024.Idx) : ∃ pc ∈ (rA a h).2.2.2.2.2.1, y ∈ pc.1.set :=
  View.cover_of_tiledL (rA a h).2.2.2.2.2.1 S16x1024.size (by sl_kernel_rfl) y

theorem coverB_out (a : Args F) (h : CB a.i) (p : St F) (y : S16x8192.Idx) : ∃ pc ∈ (rB a h p).1, y ∈ pc.1.set :=
  View.cover_of_tiledL (rB a h p).1 S16x1024.size (by sl_kernel_rfl) y

theorem coverB_pb (a : Args F) (h : CB a.i) (p : St F) (y : S1024x8192.Idx) : ∃ pc ∈ (rB a h p).2.1, y ∈ pc.1.set :=
  View.cover_of_tiledL (rB a h p).2.1 S1024x1024.size (by sl_kernel_rfl) y

theorem coverB_wb (a : Args F) (h : CB a.i) (p : St F) (y : S16x1024.Idx) : ∃ pc ∈ (rB a h p).2.2.1, y ∈ pc.1.set :=
  View.cover_of_tiledL (rB a h p).2.2.1 S16x1024.size (by sl_kernel_rfl) y

theorem coverC_out (a : Args F) (h : CC a.i) (p : St F) (y : S16x8192.Idx) : ∃ pc ∈ (rC a h p).1, y ∈ pc.1.set :=
  View.cover_of_tiledL (rC a h p).1 S16x1024.size (by sl_kernel_rfl) y

theorem coverC_pa (a : Args F) (h : CC a.i) (p : St F) (y : S1024x8192.Idx) : ∃ pc ∈ (rC a h p).2.1, y ∈ pc.1.set :=
  View.cover_of_tiledL (rC a h p).2.1 S1024x1024.size (by sl_kernel_rfl) y

theorem coverC_wa (a : Args F) (h : CC a.i) (p : St F) (y : S16x1024.Idx) : ∃ pc ∈ (rC a h p).2.2.1, y ∈ pc.1.set :=
  View.cover_of_tiledL (rC a h p).2.2.1 S16x1024.size (by sl_kernel_rfl) y

theorem coverD_out (a : Args F) (h : CD a.i) (p : St F) (y : S16x8192.Idx) : ∃ pc ∈ (rD a h p).1, y ∈ pc.1.set :=
  View.cover_of_tiledL (rD a h p).1 S16x1024.size (by sl_kernel_rfl) y

theorem coverD_pb (a : Args F) (h : CD a.i) (p : St F) (y : S1024x8192.Idx) : ∃ pc ∈ (rD a h p).2.1, y ∈ pc.1.set :=
  View.cover_of_tiledL (rD a h p).2.1 S1024x1024.size (by sl_kernel_rfl) y

theorem coverD_wb (a : Args F) (h : CD a.i) (p : St F) (y : S16x1024.Idx) : ∃ pc ∈ (rD a h p).2.2.1, y ∈ pc.1.set :=
  View.cover_of_tiledL (rD a h p).2.2.1 S16x1024.size (by sl_kernel_rfl) y

variable (m : (ℓ : Loc nD τ sig) → Buf (Elt F) ℓ)

/-- The buffers and input blocks of point `t`. -/
abbrev pt (c : Dev nD) (t : Fin cfg0.N) : Args F :=
  ⟨c, grid0.coords t, ms0 t, hs0 t, ms1 t, hs1 t, ms2 t, hs2 t, ms3 t, hs3 t, ms4 t, hs4 t, ms5 t, hs5 t, ms6 t, hs6 t, scK, Memref.isWhole_whole _, scPa, Memref.isWhole_whole _, scPb, Memref.isWhole_whole _, scWa, Memref.isWhole_whole _, scWb, Memref.isWhole_whole _, iblk m c 0 t, iblk m c 1 t, iblk m c 2 t, iblk m c 3 t, iblk m c 4 t, iblk m c 5 t⟩

theorem lt_eight (t : Fin cfg0.N) : t.val < 8 := lt_of_lt_of_eq t.isLt (show cfg0.N = 8 from N_0)

theorem caseA (t : Fin cfg0.N) (h0 : t.val % 8 = 0) : CA (grid0.coords t) :=
  ⟨(hcond0 t).mpr h0, (hcond1 t).mpr (by omega), fun h => absurd ((hcond2 t).mp h) (by omega), fun h => absurd ((hcond3 t).mp h) (by omega)⟩

theorem caseB (t : Fin cfg0.N) (h1 : ¬t.val % 2 = 0) (h3 : ¬t.val % 8 = 7) : CB (grid0.coords t) :=
  ⟨fun h => absurd ((hcond0 t).mp h) (by omega), fun h => h1 ((hcond1 t).mp h), (hcond2 t).mpr (by omega), fun h => h3 ((hcond3 t).mp h)⟩

theorem caseC (t : Fin cfg0.N) (h0 : ¬t.val % 8 = 0) (h1 : t.val % 2 = 0) : CC (grid0.coords t) :=
  ⟨fun h => h0 ((hcond0 t).mp h), (hcond1 t).mpr h1, fun h => absurd ((hcond2 t).mp h) (by omega), fun h => absurd ((hcond3 t).mp h) (by omega)⟩

theorem caseD (t : Fin cfg0.N) (h3 : t.val % 8 = 7) : CD (grid0.coords t) :=
  ⟨fun h => absurd ((hcond0 t).mp h) (by omega), fun h => absurd ((hcond1 t).mp h) (by omega), (hcond2 t).mpr (by omega), (hcond3 t).mpr h3⟩

/-- A buffer that a covering list of stores was written into holds those stores read back, whatever it held before. -/
theorem owns_back {sh : Shape} {e : EltTy} (c : Dev nD) (mr : Memref sig .tc .vmem sh e) (V : View sig .tc .vmem sh e)
    (L : List (View.Piece (Elt F) sh e)) (hcov : ∀ y, ∃ p ∈ L, y ∈ p.1.set) :
    (iprop(∃ f, mr.view.loc (c : Thread nD τ) ↦[mr.view.set]{fullShare} mr.view.writes (Elt F) f L) : sProp 𝕄)
      ⊢ owns (c : Thread nD τ) mr fullShare (V.read (Elt F) (V.writes (Elt F) V.junk L)) := by
  iintro ⟨%f, H⟩
  unfold owns; iexists _; isplitr
  swap; · iexact H
  ipureintro; exact View.read_writes_of_cover _ _ _ _ _ hcov

end Cert.Kernel.Body

end
-- ==== Proof.K.Frame.lean ====
import proofs.«137864_g5935644803188_cont_9to1c4b_610_18_alg».proof.Proof.K.Point
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- After the first point every carried buffer holds the point's stores, read back. -/
def stA (a : Args F) (h : CA a.i) : St F where
  out := VO.read (Elt F) (VO.writes (Elt F) VO.junk (rA a h).1)
  kt := VK.read (Elt F) (VK.writes (Elt F) VK.junk (rA a h).2.1)
  pa := VPa.read (Elt F) (VPa.writes (Elt F) VPa.junk (rA a h).2.2.1)
  pb := VPb.read (Elt F) (VPb.writes (Elt F) VPb.junk (rA a h).2.2.2.1)
  wa := VWa.read (Elt F) (VWa.writes (Elt F) VWa.junk (rA a h).2.2.2.2.1)
  wb := VWb.read (Elt F) (VWb.writes (Elt F) VWb.junk (rA a h).2.2.2.2.2.1)

/-- After a later point the buffers the case stores into hold its stores, read back; the others are as the point before left them. -/
def stB (a : Args F) (h : CB a.i) (p : St F) : St F where
  out := VO.read (Elt F) (VO.writes (Elt F) VO.junk (rB a h p).1)
  kt := p.kt
  pa := p.pa
  pb := VPb.read (Elt F) (VPb.writes (Elt F) VPb.junk (rB a h p).2.1)
  wa := p.wa
  wb := VWb.read (Elt F) (VWb.writes (Elt F) VWb.junk (rB a h p).2.2.1)

def stC (a : Args F) (h : CC a.i) (p : St F) : St F where
  out := VO.read (Elt F) (VO.writes (Elt F) VO.junk (rC a h p).1)
  kt := p.kt
  pa := VPa.read (Elt F) (VPa.writes (Elt F) VPa.junk (rC a h p).2.1)
  pb := p.pb
  wa := VWa.read (Elt F) (VWa.writes (Elt F) VWa.junk (rC a h p).2.2.1)
  wb := p.wb

def stD (a : Args F) (h : CD a.i) (p : St F) : St F where
  out := VO.read (Elt F) (VO.writes (Elt F) VO.junk (rD a h p).1)
  kt := p.kt
  pa := p.pa
  pb := VPb.read (Elt F) (VPb.writes (Elt F) VPb.junk (rD a h p).2.1)
  wa := p.wa
  wb := VWb.read (Elt F) (VWb.writes (Elt F) VWb.junk (rD a h p).2.2.1)

/-- What the carried buffers hold after the body at position `n`, by recursion on the position. -/
def stAt (c : Dev nD) : (n : ℕ) → n < cfg0.N → St F
  | 0, hn => stA (pt m c ⟨0, hn⟩) (caseA ⟨0, hn⟩ (Nat.zero_mod 8))
  | n + 1, hn =>
    if h0 : (n + 1) % 8 = 0 then
      False.elim (by have hN : n + 1 < 8 := lt_of_lt_of_eq hn (show cfg0.N = 8 from N_0); omega)
    else if h1 : (n + 1) % 2 = 0 then stC (pt m c ⟨n + 1, hn⟩) (caseC ⟨n + 1, hn⟩ h0 h1) (stAt c n (Nat.lt_of_succ_lt hn))
    else if h3 : (n + 1) % 8 = 7 then stD (pt m c ⟨n + 1, hn⟩) (caseD ⟨n + 1, hn⟩ h3) (stAt c n (Nat.lt_of_succ_lt hn))
    else stB (pt m c ⟨n + 1, hn⟩) (caseB ⟨n + 1, hn⟩ h1 h3) (stAt c n (Nat.lt_of_succ_lt hn))

theorem pred_lt (t : Fin cfg0.N) : t.val - 1 < cfg0.N := Nat.lt_of_le_of_lt (Nat.sub_le _ _) t.isLt

theorem stAt_A (c : Dev nD) (t : Fin cfg0.N) (h0 : t.val % 8 = 0) :
    stAt m c t.val t.isLt = stA (pt m c t) (caseA t h0) := by
  obtain ⟨n, hn⟩ := t
  cases n with
  | zero => exact rfl
  | succ n =>
    exfalso
    have hN : n + 1 < 8 := lt_of_lt_of_eq hn (show cfg0.N = 8 from N_0)
    have h0' : (n + 1) % 8 = 0 := h0
    omega

theorem stAt_B (c : Dev nD) (t : Fin cfg0.N) (h1 : ¬t.val % 2 = 0) (h3 : ¬t.val % 8 = 7) :
    stAt m c t.val t.isLt = stB (pt m c t) (caseB t h1 h3) (stAt m c (t.val - 1) (pred_lt t)) := by
  obtain ⟨n, hn⟩ := t
  cases n with
  | zero => exact absurd (Nat.zero_mod _) h1
  | succ n =>
    have h1' : ¬(n + 1) % 2 = 0 := h1
    have h0 : ¬(n + 1) % 8 = 0 := by omega
    exact (dif_neg h0).trans ((dif_neg h1).trans ((dif_neg h3).trans rfl))

theorem stAt_C (c : Dev nD) (t : Fin cfg0.N) (h0 : ¬t.val % 8 = 0) (h1 : t.val % 2 = 0) :
    stAt m c t.val t.isLt = stC (pt m c t) (caseC t h0 h1) (stAt m c (t.val - 1) (pred_lt t)) := by
  obtain ⟨n, hn⟩ := t
  cases n with
  | zero => exact absurd (Nat.zero_mod _) h0
  | succ n => exact (dif_neg h0).trans ((dif_pos h1).trans rfl)

theorem stAt_D (c : Dev nD) (t : Fin cfg0.N) (h3 : t.val % 8 = 7) :
    stAt m c t.val t.isLt = stD (pt m c t) (caseD t h3) (stAt m c (t.val - 1) (pred_lt t)) := by
  obtain ⟨n, hn⟩ := t
  cases n with
  | zero =>
    exfalso
    have h3' : (0 : ℕ) % 8 = 7 := h3
    omega
  | succ n =>
    have h3' : (n + 1) % 8 = 7 := h3
    have h0 : ¬(n + 1) % 8 = 0 := by omega
    have h1 : ¬(n + 1) % 2 = 0 := by omega
    exact (dif_neg h0).trans ((dif_neg h1).trans ((dif_pos h3).trans rfl))

/-- The five scratch buffers at named contents, and the generator register at some state. -/
def scAt (c : Dev nD) (S : St F) : sProp 𝕄 :=
  iprop(iprop(owns (c : Thread nD τ) scK fullShare S.kt ∗ owns (c : Thread nD τ) scPa fullShare S.pa ∗ owns (c : Thread nD τ) scPb fullShare S.pb ∗ owns (c : Thread nD τ) scWa fullShare S.wa ∗ owns (c : Thread nD τ) scWb fullShare S.wb) ∗ (∃ r, prngReg c r))

/-- The invariant before position `n`: nothing is known of the scratch buffers before the first point; afterwards they hold what the point before left. -/
def PhiS (c : Dev nD) : (n : ℕ) → n ≤ cfg0.N → sProp 𝕄
  | 0, _ => Pipeline.ΦA spec0 c
  | n + 1, hn => scAt c (stAt m c n hn)

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) : PhiS m c (n + 1) hn = scAt c (stAt m c n hn) := rfl

theorem PhiS_pos (c : Dev nD) (n : ℕ) (h : n ≤ cfg0.N) (hz : n ≠ 0) :
    PhiS m c n h = scAt c (stAt m c (n - 1) (by omega)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (stAt m c t.val t.isLt).out
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (stAt m c t.val t.isLt).out := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

theorem live6_all : ∀ i : grid0.Coords, cfg0.idle 6 i = false := by decide +kernel

theorem before6 (c : Dev nD) (t : Fin cfg0.N) (ht : t.val ≠ 0) (d) :
    (dats m 0 c).before 6 t d = (stAt m c (t.val - 1) (pred_lt t)).out := by
  have hN : t.val < 8 := lt_of_lt_of_eq t.isLt (show cfg0.N = 8 from N_0)
  rw [Dat.before_out_kept _ 6 rfl t ht (Bool.eq_false_iff.mpr fun h => by have := (flush0_6 _).mp h; dsimp only at this; omega)
    live6_all (fun _ _ => rfl)]
  dsimp only [dats]

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 20000000 in
/-- The body at any point: the point's position picks the case, the case's run applies, every buffer it stores into comes back at its stores read back, and that is the invariant at the next point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]; unfold scAt
  rw [show (dats m 0 c).leavesExact 0 t = owns (c : Thread nD τ) (ms0 t) fullShare ((dats m 0 c).after 0 t) from by
    unfold Dat.leavesExact; rw [live0 t], after0_0]
  rw [show (dats m 0 c).leavesExact 1 t = owns (c : Thread nD τ) (ms1 t) fullShare ((dats m 0 c).after 1 t) from by
    unfold Dat.leavesExact; rw [live1 t], after0_1]
  rw [show (dats m 0 c).leavesExact 2 t = owns (c : Thread nD τ) (ms2 t) fullShare ((dats m 0 c).after 2 t) from by
    unfold Dat.leavesExact; rw [live2 t], after0_2]
  rw [show (dats m 0 c).leavesExact 3 t = owns (c : Thread nD τ) (ms3 t) fullShare ((dats m 0 c).after 3 t) from by
    unfold Dat.leavesExact; rw [live3 t], after0_3]
  rw [show (dats m 0 c).leavesExact 4 t = owns (c : Thread nD τ) (ms4 t) fullShare ((dats m 0 c).after 4 t) from by
    unfold Dat.leavesExact; rw [live4 t], after0_4]
  rw [show (dats m 0 c).leavesExact 5 t = owns (c : Thread nD τ) (ms5 t) fullShare ((dats m 0 c).after 5 t) from by
    unfold Dat.leavesExact; rw [live5 t], after0_5]
  rw [show (dats m 0 c).leavesExact 6 t = owns (c : Thread nD τ) (ms6 t) fullShare ((dats m 0 c).after 6 t) from by
    unfold Dat.leavesExact; rw [live6 t], after0_6]
  have hN := lt_eight t
  by_cases h0 : t.val % 8 = 0
  · rw [stAt_A m c t h0]
    unfold stA; dsimp only
    have hz : t.val = 0 := by omega
    rw [PhiS_castSucc m c t, PhiS_zero m c _ _ hz, PhiA_eq]
    iintro ⟨⟨⟨HK, HPa, HPb, HWa, HWb⟩, Hg⟩, Ho, ⟨%d0, H0⟩, ⟨%d1, H1⟩, ⟨%d2, H2⟩, ⟨%d3, H3⟩, ⟨%d4, H4⟩, ⟨%d5, H5⟩, ⟨%d6, H6⟩⟩
    iapply ((rA (pt m c t) (caseA t h0)).2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HK]; · iexact HK
    isplitl [HPa]; · iexact HPa
    isplitl [HPb]; · iexact HPb
    isplitl [HWa]; · iexact HWa
    isplitl [HWb]; · iexact HWb
    iintro ⟨H0, H1, H2, H3, H4, H5, H6, HK, HPa, HPb, HWa, HWb⟩
    isplitl [HK HPa HPb HWa HWb Hg]
    · isplitl [HK HPa HPb HWa HWb]
      · isplitl [HK]; · iapply (owns_back c scK VK _ (coverA_kt _ _)); iexact HK
        isplitl [HPa]; · iapply (owns_back c scPa VPa _ (coverA_pa _ _)); iexact HPa
        isplitl [HPb]; · iapply (owns_back c scPb VPb _ (coverA_pb _ _)); iexact HPb
        isplitl [HWa]; · iapply (owns_back c scWa VWa _ (coverA_wa _ _)); iexact HWa
        iapply (owns_back c scWb VWb _ (coverA_wb _ _)); iexact HWb
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iapply (owns_back c (ms6 t) VO _ (coverA_out _ _)); iexact H6
  · by_cases h1 : t.val % 2 = 0
    · rw [stAt_C m c t h0 h1]
      unfold stC; dsimp only
      have hz : t.val ≠ 0 := by omega
      rw [PhiS_castSucc m c t, PhiS_pos m c _ _ hz]; unfold scAt
      simp only [before6 m c t hz]
      iintro ⟨⟨⟨HK, HPa, HPb, HWa, HWb⟩, Hg⟩, Ho, ⟨%d0, H0⟩, ⟨%d1, H1⟩, ⟨%d2, H2⟩, ⟨%d3, H3⟩, ⟨%d4, H4⟩, ⟨%d5, H5⟩, ⟨%d6, H6⟩⟩
      iapply ((rC (pt m c t) (caseC t h0 h1) (stAt m c (t.val - 1) (pred_lt t))).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HK]; · iexact HK
      isplitl [HPa]; · iexact HPa
      isplitl [HPb]; · iexact HPb
      isplitl [HWa]; · iexact HWa
      isplitl [HWb]; · iexact HWb
      iintro ⟨H0, H1, H2, H3, H4, H5, H6, HK, HPa, HPb, HWa, HWb⟩
      isplitl [HK HPa HPb HWa HWb Hg]
      · isplitl [HK HPa HPb HWa HWb]
        · isplitl [HK]; · iexact HK
          isplitl [HPa]; · iapply (owns_back c scPa VPa _ (coverC_pa _ _ _)); iexact HPa
          isplitl [HPb]; · iexact HPb
          isplitl [HWa]; · iapply (owns_back c scWa VWa _ (coverC_wa _ _ _)); iexact HWa
          iexact HWb
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iapply (owns_back c (ms6 t) VO _ (coverC_out _ _ _)); iexact H6
    · by_cases h3 : t.val % 8 = 7
      · rw [stAt_D m c t h3]
        unfold stD; dsimp only
        have hz : t.val ≠ 0 := by omega
        rw [PhiS_castSucc m c t, PhiS_pos m c _ _ hz]; unfold scAt
        simp only [before6 m c t hz]
        iintro ⟨⟨⟨HK, HPa, HPb, HWa, HWb⟩, Hg⟩, Ho, ⟨%d0, H0⟩, ⟨%d1, H1⟩, ⟨%d2, H2⟩, ⟨%d3, H3⟩, ⟨%d4, H4⟩, ⟨%d5, H5⟩, ⟨%d6, H6⟩⟩
        iapply ((rD (pt m c t) (caseD t h3) (stAt m c (t.val - 1) (pred_lt t))).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HK]; · iexact HK
        isplitl [HPa]; · iexact HPa
        isplitl [HPb]; · iexact HPb
        isplitl [HWa]; · iexact HWa
        isplitl [HWb]; · iexact HWb
        iintro ⟨H0, H1, H2, H3, H4, H5, H6, HK, HPa, HPb, HWa, HWb⟩
        isplitl [HK HPa HPb HWa HWb Hg]
        · isplitl [HK HPa HPb HWa HWb]
          · isplitl [HK]; · iexact HK
            isplitl [HPa]; · iexact HPa
            isplitl [HPb]; · iapply (owns_back c scPb VPb _ (coverD_pb _ _ _)); iexact HPb
            isplitl [HWa]; · iexact HWa
            iapply (owns_back c scWb VWb _ (coverD_wb _ _ _)); iexact HWb
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iapply (owns_back c (ms6 t) VO _ (coverD_out _ _ _)); iexact H6
      · rw [stAt_B m c t h1 h3]
        unfold stB; dsimp only
        have hz : t.val ≠ 0 := by omega
        rw [PhiS_castSucc m c t, PhiS_pos m c _ _ hz]; unfold scAt
        simp only [before6 m c t hz]
        iintro ⟨⟨⟨HK, HPa, HPb, HWa, HWb⟩, Hg⟩, Ho, ⟨%d0, H0⟩, ⟨%d1, H1⟩, ⟨%d2, H2⟩, ⟨%d3, H3⟩, ⟨%d4, H4⟩, ⟨%d5, H5⟩, ⟨%d6, H6⟩⟩
        iapply ((rB (pt m c t) (caseB t h1 h3) (stAt m c (t.val - 1) (pred_lt t))).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HK]; · iexact HK
        isplitl [HPa]; · iexact HPa
        isplitl [HPb]; · iexact HPb
        isplitl [HWa]; · iexact HWa
        isplitl [HWb]; · iexact HWb
        iintro ⟨H0, H1, H2, H3, H4, H5, H6, HK, HPa, HPb, HWa, HWb⟩
        isplitl [HK HPa HPb HWa HWb Hg]
        · isplitl [HK HPa HPb HWa HWb]
          · isplitl [HK]; · iexact HK
            isplitl [HPa]; · iexact HPa
            isplitl [HPb]; · iapply (owns_back c scPb VPb _ (coverB_pb _ _ _)); iexact HPb
            isplitl [HWa]; · iexact HWa
            iapply (owns_back c scWb VWb _ (coverB_wb _ _ _)); iexact HWb
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iapply (owns_back c (ms6 t) VO _ (coverB_out _ _ _)); iexact H6

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]; unfold scAt
  iintro ⟨⟨HK, HPa, HPb, HWa, HWb⟩, Hg⟩
  isplitl [HK HPa HPb HWa HWb]
  · isplitl [HK]; · iexists _; iexact HK
    isplitl [HPa]; · iexists _; iexact HPa
    isplitl [HPb]; · iexists _; iexact HPb
    isplitl [HWa]; · iexists _; iexact HWa
    iexists _; iexact HWb
  iexact Hg

theorem hout (c : Dev nD) : (dats m 0 c).Φ (Fin.last cfg0.N) ⊢ Pipeline.ΦA spec0 c :=
  Phi_out m c _ (by rw [Fin.val_last]; have : cfg0.N = 8 := N_0; omega)

set_option backward.isDefEq.respectTransparency.types false in
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

theorem run_named : θ_run defs (onTc (τ := τ) (main (F := F))) ⟨m, fun _ => 0, ρ⟩ (fun r => ∀ c : Dev nD,
      r.2.mem ((c.tc : Thread nD τ).loc main_v2) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1 6,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 4).trans (((dats m 0 c).arrAt_in 4 rfl _).trans ((A_eq m c 4).trans (V_main_arg2 m c))),
      ((h c).2 main_arg3 (Pipeline.mem_restRefs_of main_arg3 (by decide) (by decide))).trans (V_main_arg3 m c),
      ((h c).1 2).trans (((dats m 0 c).arrAt_in 2 rfl _).trans ((A_eq m c 2).trans (V_main_arg4 m c))),
      ((h c).2 main_arg5 (Pipeline.mem_restRefs_of main_arg5 (by decide) (by decide))).trans (V_main_arg5 m c)⟩) (run_main m ρ)

abbrev result (c : Dev nD) : Buf (Elt F) ((c : Thread nD τ).loc main_v2) :=
  (stAt m c 7 (by rw [show cfg0.N = 8 from N_0]; decide)).out

theorem off7 : (fun a => win0_6.index t0_7 a * main_v2.ty.shape.size a) = fun _ => 0 :=
  funext fun a => match a with
    | ⟨0, _⟩ => show win0_6.index t0_7 0 * main_v2.ty.shape.size 0 = 0 from by decide +kernel
    | ⟨1, _⟩ => show win0_6.index t0_7 1 * main_v2.ty.shape.size 1 = 0 from by decide +kernel

theorem flushed_eq (c : Dev nD) (t : Fin cfg0.N) (hf : (cfg0.win 6).flush t = true) :
    (dats m 0 c).flushed 6 t = ((cfg0.win 6).blk t).view.read (Elt F) (result m c) := by
  have hN : cfg0.N = 8 := N_0
  have h7 : t.val = 7 := by have := (flush0_6 t).mp hf; have := t.isLt; omega
  obtain rfl : t = t0_7 := Fin.ext h7
  show (cfg0.win 6).cut (grid0.coords t0_7) ((dats m 0 c).after 6 t0_7) = _
  rw [after0_6]
  exact (Memref.read_access_unit_zero (Elt F) main_v2 off7 (fun a => by rw [congrFun off7 a]; simp) (result m c)).symm

theorem mem_blk7 (c : Dev nD) (i : ((cfg0.win 6).arr.view.loc (c.tc : Thread nD τ)).2.ty.Idx) :
    i ∈ ((cfg0.win 6).blk t0_7).view.set := by
  show i ∈ ((View.whole main_v2).slice (win0_6.rect t0_7)).set
  rw [View.set_slice_whole, Rect.mem_set_unit]
  intro a
  have h0 : (i 0 : Nat) < 16 := (i 0).isLt
  have h1 : (i 1 : Nat) < 8192 := (i 1).isLt
  match a with
  | ⟨0, _⟩ =>
    show win0_6.index t0_7 0 * win0_6.size 0 ≤ (i 0 : Nat) ∧ (i 0 : Nat) < win0_6.index t0_7 0 * win0_6.size 0 + win0_6.xsize (grid0.coords t0_7) 0
    rw [show win0_6.index t0_7 0 * win0_6.size 0 = 0 from by decide +kernel, show win0_6.xsize (grid0.coords t0_7) 0 = 16 from by decide +kernel]
    omega
  | ⟨1, _⟩ =>
    show win0_6.index t0_7 1 * win0_6.size 1 ≤ (i 1 : Nat) ∧ (i 1 : Nat) < win0_6.index t0_7 1 * win0_6.size 1 + win0_6.xsize (grid0.coords t0_7) 1
    rw [show win0_6.index t0_7 1 * win0_6.size 1 = 0 from by decide +kernel, show win0_6.xsize (grid0.coords t0_7) 1 = 8192 from by decide +kernel]
    omega

theorem out_final (c : Dev nD) : (dats m 0 c).arrAt 6 cfg0.N = result m c :=
  (dats m 0 c).arrAt_eq_of_cover 6 (result m c) (flushed_eq m c) fun i =>
    ⟨t0_7, (flush0_6 t0_7).mpr rfl, mem_blk7 c i⟩

end Cert.Kernel.Body

end
-- ==== Proof.KI.Conds.lean ====
import proofs.«137864_g5935644803188_cont_9to1c4b_610_18_alg».proof.Proof.Gen.KernelIdeal.Frame
import proofs.«137864_g5935644803188_cont_9to1c4b_610_18_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

abbrev cond0 (i : grid0.Coords) : Prop := k0_cond1 i = 1#1
theorem hcond0 : ∀ t : Fin cfg0.N, cond0 (grid0.coords t) ↔ t.val % 8 = 0 :=
  (by decide +kernel : ∀ t : Fin grid0.N, cond0 (grid0.coords t) ↔ t.val % 8 = 0)

abbrev cond1 (i : grid0.Coords) : Prop := k0_cond2 i = 1#1
theorem hcond1 : ∀ t : Fin cfg0.N, cond1 (grid0.coords t) ↔ t.val % 2 = 0 :=
  (by decide +kernel : ∀ t : Fin grid0.N, cond1 (grid0.coords t) ↔ t.val % 2 = 0)

abbrev cond2 (i : grid0.Coords) : Prop := k0_cond3 i = 1#1
theorem hcond2 : ∀ t : Fin cfg0.N, cond2 (grid0.coords t) ↔ t.val % 2 = 1 :=
  (by decide +kernel : ∀ t : Fin grid0.N, cond2 (grid0.coords t) ↔ t.val % 2 = 1)

abbrev cond3 (i : grid0.Coords) : Prop := k0_cond4 i = 1#1
theorem hcond3 : ∀ t : Fin cfg0.N, cond3 (grid0.coords t) ↔ t.val % 8 = 7 :=
  (by decide +kernel : ∀ t : Fin grid0.N, cond3 (grid0.coords t) ↔ t.val % 8 = 7)

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
theorem live5 : ∀ t : Fin cfg0.N, cfg0.idle 5 (grid0.coords t) = false := by decide +kernel
theorem live6 : ∀ t : Fin cfg0.N, cfg0.idle 6 (grid0.coords t) = false := by decide +kernel

abbrev ms0 (t : Fin cfg0.N) : Memref sig .tc .vmem S16x8192 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8192x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S64x128 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x64 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S64x128 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S64x1 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S16x8192 .f32 := win0_6.stage (cfg0.slots t 6)
abbrev hs6 (t : Fin cfg0.N) : (ms6 t).IsWhole := hstage0_6 ((cfg0.slots t 6).cast nbuf0_6)

abbrev scK : Memref sig .tc .vmem S64x8192 .bf16 := Memref.whole cc0_scratch0
abbrev scPa : Memref sig .tc .vmem S1024x8192 .bf16 := Memref.whole cc0_scratch1
abbrev scPb : Memref sig .tc .vmem S1024x8192 .bf16 := Memref.whole cc0_scratch2
abbrev scWa : Memref sig .tc .vmem S16x1024 .bf16 := Memref.whole cc0_scratch3
abbrev scWb : Memref sig .tc .vmem S16x1024 .bf16 := Memref.whole cc0_scratch4

abbrev VO : View sig .tc .vmem S16x8192 .f32 := (Memref.whole cc0_stg6_0 : Memref sig .tc .vmem S16x8192 .f32).view
abbrev VK : View sig .tc .vmem S64x8192 .bf16 := scK.view
abbrev VPa : View sig .tc .vmem S1024x8192 .bf16 := scPa.view
abbrev VPb : View sig .tc .vmem S1024x8192 .bf16 := scPb.view
abbrev VWa : View sig .tc .vmem S16x1024 .bf16 := scWa.view
abbrev VWb : View sig .tc .vmem S16x1024 .bf16 := scWb.view

theorem PhiA_eq (c : Dev nD) :
    (Pipeline.ΦA spec0 c : sProp 𝕄)
      = iprop(iprop((∃ d, owns (c : Thread nD τ) scK fullShare d) ∗ (∃ d, owns (c : Thread nD τ) scPa fullShare d) ∗ (∃ d, owns (c : Thread nD τ) scPb fullShare d) ∗ (∃ d, owns (c : Thread nD τ) scWa fullShare d) ∗ (∃ d, owns (c : Thread nD τ) scWb fullShare d)) ∗ (∃ r, prngReg c r)) := by
  unfold Pipeline.ΦA; rw [scopedRest0_eq]; simp only [scK, scPa, scPb, scWa, scWb, owns_whole]; try rfl

end Cert.KernelIdeal.Body

end
-- ==== Proof.KI.RunA.lean ====
/-
  The body at the first point: the transposed keys are computed and stored, the output and the odd pair of
  scratch buffers are zeroed, then the point's slab of exponentials and its weights are produced into the even
  pair while the (zero) odd pair is contracted into the output, column chunk by column chunk.
-/
import proofs.«137864_g5935644803188_cont_9to1c4b_610_18_alg».proof.Proof.KI.Conds

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run in this case, on whole buffers: the six inputs at their blocks; each buffer the case reads at
    its contents; the body runs to the end holding the inputs as they were, every buffer it only reads as it
    was, and every buffer it stores into with the case's stores written, as pieces, last store first. -/
noncomputable def runA (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S1024x8192 .bf16) (harg9 : arg9.IsWhole) (arg10 : Memref sig .tc .vmem S1024x8192 .bf16) (harg10 : arg10.IsWhole) (arg11 : Memref sig .tc .vmem S16x1024 .bf16) (harg11 : arg11.IsWhole) (arg12 : Memref sig .tc .vmem S16x1024 .bf16) (harg12 : arg12.IsWhole) (hc0 : cond0 i) (hc1 : cond1 i) (hc2 : ¬cond2 i) (hc3 : ¬cond3 i)
    (x0 : Vec F S16x8192 .f32) (x1 : Vec F S8192x128 .f32) (x2 : Vec F S64x128 .f32) (x3 : Vec F S1x64 .f32) (x4 : Vec F S64x128 .f32) (x5 : Vec F S64x1 .f32)  :
    Σ' (L7 : List (View.Piece (Elt F) S16x8192 .f32)) (L8 : List (View.Piece (Elt F) S64x8192 .bf16)) (L9 : List (View.Piece (Elt F) S1024x8192 .bf16)) (L10 : List (View.Piece (Elt F) S1024x8192 .bf16)) (L11 : List (View.Piece (Elt F) S16x1024 .bf16)), { L12 : List (View.Piece (Elt F) S16x1024 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ f, arg9.view.loc (c : Thread nD τ) ↦[arg9.view.set]{fullShare} arg9.view.writes (Elt F) f L9) ∗ (∃ f, arg10.view.loc (c : Thread nD τ) ↦[arg10.view.set]{fullShare} arg10.view.writes (Elt F) f L10) ∗ (∃ f, arg11.view.loc (c : Thread nD τ) ↦[arg11.view.set]{fullShare} arg11.view.writes (Elt F) f L11) ∗ (∃ f, arg12.view.loc (c : Thread nD τ) ↦[arg12.view.set]{fullShare} arg12.view.writes (Elt F) f L12)) -∗ K ⟨⟩))
          ⊢ wp frame (wpE (defs₀ (F := F)) Variants.none c none) E (cc0__fused_body i arg1 harg1 arg2 harg2 arg3 harg3 arg4 harg4 arg5 harg5 arg6 harg6 arg7 harg7 arg8 harg8 arg9 harg9 arg10 harg10 arg11 harg11 arg12 harg12) K } := by
  refine ⟨?_, ?_, ?_, ?_, ?_, ?_, fun E K => ?run⟩
  case run =>
    simp only [cc0__fused_body_eq_skeleton]; unfold cc0__fused_body_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d7, %f7, -, H7⟩, ⟨%d8, %f8, -, H8⟩, ⟨%d9, %f9, -, H9⟩, ⟨%d10, %f10, -, H10⟩, ⟨%d11, %f11, -, H11⟩, ⟨%d12, %f12, -, H12⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | exact hc0 | exact hc1 | exact hc2 | exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H7]
    · iexists _; iexact H7
    isplitl [H8]
    · iexists _; iexact H8
    isplitl [H9]
    · iexists _; iexact H9
    isplitl [H10]
    · iexists _; iexact H10
    isplitl [H11]
    · iexists _; iexact H11
    iexists _; iexact H12

end Cert.KernelIdeal.Body

end
-- ==== Proof.KI.RunB.lean ====
/-
  The body at an odd point that is not the last: the slab of exponentials and its weights are produced into the
  odd pair of scratch buffers from the transposed keys, while the even pair, left by the point before, is
  contracted into the output, column chunk by column chunk.
-/
import proofs.«137864_g5935644803188_cont_9to1c4b_610_18_alg».proof.Proof.KI.Conds

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run in this case, on whole buffers: the six inputs at their blocks; each buffer the case reads at
    its contents; the body runs to the end holding the inputs as they were, every buffer it only reads as it
    was, and every buffer it stores into with the case's stores written, as pieces, last store first. -/
noncomputable def runB (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S1024x8192 .bf16) (harg9 : arg9.IsWhole) (arg10 : Memref sig .tc .vmem S1024x8192 .bf16) (harg10 : arg10.IsWhole) (arg11 : Memref sig .tc .vmem S16x1024 .bf16) (harg11 : arg11.IsWhole) (arg12 : Memref sig .tc .vmem S16x1024 .bf16) (harg12 : arg12.IsWhole) (hc0 : ¬cond0 i) (hc1 : ¬cond1 i) (hc2 : cond2 i) (hc3 : ¬cond3 i)
    (x0 : Vec F S16x8192 .f32) (x1 : Vec F S8192x128 .f32) (x2 : Vec F S64x128 .f32) (x3 : Vec F S1x64 .f32) (x4 : Vec F S64x128 .f32) (x5 : Vec F S64x1 .f32) (xo : Vec F S16x8192 .f32) (xk : Vec F S64x8192 .bf16) (xpa : Vec F S1024x8192 .bf16) (xpb : Vec F S1024x8192 .bf16) (xwa : Vec F S16x1024 .bf16) (xwb : Vec F S16x1024 .bf16) :
    Σ' (L7 : List (View.Piece (Elt F) S16x8192 .f32)) (L10 : List (View.Piece (Elt F) S1024x8192 .bf16)), { L12 : List (View.Piece (Elt F) S16x1024 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xo ∗ owns (c : Thread nD τ) arg8 fullShare xk ∗ owns (c : Thread nD τ) arg9 fullShare xpa ∗ owns (c : Thread nD τ) arg10 fullShare xpb ∗ owns (c : Thread nD τ) arg11 fullShare xwa ∗ owns (c : Thread nD τ) arg12 fullShare xwb
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L7) ∗ owns (c : Thread nD τ) arg8 fullShare xk ∗ owns (c : Thread nD τ) arg9 fullShare xpa ∗ (∃ f, arg10.view.loc (c : Thread nD τ) ↦[arg10.view.set]{fullShare} arg10.view.writes (Elt F) f L10) ∗ owns (c : Thread nD τ) arg11 fullShare xwa ∗ (∃ f, arg12.view.loc (c : Thread nD τ) ↦[arg12.view.set]{fullShare} arg12.view.writes (Elt F) f L12)) -∗ K ⟨⟩))
          ⊢ wp frame (wpE (defs₀ (F := F)) Variants.none c none) E (cc0__fused_body i arg1 harg1 arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0__fused_body_eq_skeleton]; unfold cc0__fused_body_skel
    simp only [k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf7; obtain rfl := harg8.eq_unread hf8; obtain rfl := harg9.eq_unread hf9; obtain rfl := harg10.eq_unread hf10; obtain rfl := harg11.eq_unread hf11; obtain rfl := harg12.eq_unread hf12
    sl_exec (disch := first | exact hc0 | exact hc1 | exact hc2 | exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H7]
    · iexists _; iexact H7
    isplitl [H8]
    · iexists _; isplitr; · ipureintro; exact harg8.read_unread _
      iexact H8
    isplitl [H9]
    · iexists _; isplitr; · ipureintro; exact harg9.read_unread _
      iexact H9
    isplitl [H10]
    · iexists _; iexact H10
    isplitl [H11]
    · iexists _; isplitr; · ipureintro; exact harg11.read_unread _
      iexact H11
    iexists _; iexact H12

end Cert.KernelIdeal.Body

end
-- ==== Proof.KI.RunC.lean ====
/-
  The body at an even point that is not the first: the slab of exponentials and its weights are produced into the
  even pair of scratch buffers from the transposed keys, while the odd pair, left by the point before, is
  contracted into the output, column chunk by column chunk.
-/
import proofs.«137864_g5935644803188_cont_9to1c4b_610_18_alg».proof.Proof.KI.Conds

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run in this case, on whole buffers: the six inputs at their blocks; each buffer the case reads at
    its contents; the body runs to the end holding the inputs as they were, every buffer it only reads as it
    was, and every buffer it stores into with the case's stores written, as pieces, last store first. -/
noncomputable def runC (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S1024x8192 .bf16) (harg9 : arg9.IsWhole) (arg10 : Memref sig .tc .vmem S1024x8192 .bf16) (harg10 : arg10.IsWhole) (arg11 : Memref sig .tc .vmem S16x1024 .bf16) (harg11 : arg11.IsWhole) (arg12 : Memref sig .tc .vmem S16x1024 .bf16) (harg12 : arg12.IsWhole) (hc0 : ¬cond0 i) (hc1 : cond1 i) (hc2 : ¬cond2 i) (hc3 : ¬cond3 i)
    (x0 : Vec F S16x8192 .f32) (x1 : Vec F S8192x128 .f32) (x2 : Vec F S64x128 .f32) (x3 : Vec F S1x64 .f32) (x4 : Vec F S64x128 .f32) (x5 : Vec F S64x1 .f32) (xo : Vec F S16x8192 .f32) (xk : Vec F S64x8192 .bf16) (xpa : Vec F S1024x8192 .bf16) (xpb : Vec F S1024x8192 .bf16) (xwa : Vec F S16x1024 .bf16) (xwb : Vec F S16x1024 .bf16) :
    Σ' (L7 : List (View.Piece (Elt F) S16x8192 .f32)) (L9 : List (View.Piece (Elt F) S1024x8192 .bf16)), { L11 : List (View.Piece (Elt F) S16x1024 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xo ∗ owns (c : Thread nD τ) arg8 fullShare xk ∗ owns (c : Thread nD τ) arg9 fullShare xpa ∗ owns (c : Thread nD τ) arg10 fullShare xpb ∗ owns (c : Thread nD τ) arg11 fullShare xwa ∗ owns (c : Thread nD τ) arg12 fullShare xwb
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L7) ∗ owns (c : Thread nD τ) arg8 fullShare xk ∗ (∃ f, arg9.view.loc (c : Thread nD τ) ↦[arg9.view.set]{fullShare} arg9.view.writes (Elt F) f L9) ∗ owns (c : Thread nD τ) arg10 fullShare xpb ∗ (∃ f, arg11.view.loc (c : Thread nD τ) ↦[arg11.view.set]{fullShare} arg11.view.writes (Elt F) f L11) ∗ owns (c : Thread nD τ) arg12 fullShare xwb) -∗ K ⟨⟩))
          ⊢ wp frame (wpE (defs₀ (F := F)) Variants.none c none) E (cc0__fused_body i arg1 harg1 arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0__fused_body_eq_skeleton]; unfold cc0__fused_body_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf7; obtain rfl := harg8.eq_unread hf8; obtain rfl := harg9.eq_unread hf9; obtain rfl := harg10.eq_unread hf10; obtain rfl := harg11.eq_unread hf11; obtain rfl := harg12.eq_unread hf12
    sl_exec (disch := first | exact hc0 | exact hc1 | exact hc2 | exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H7]
    · iexists _; iexact H7
    isplitl [H8]
    · iexists _; isplitr; · ipureintro; exact harg8.read_unread _
      iexact H8
    isplitl [H9]
    · iexists _; iexact H9
    isplitl [H10]
    · iexists _; isplitr; · ipureintro; exact harg10.read_unread _
      iexact H10
    isplitl [H11]
    · iexists _; iexact H11
    iexists _; isplitr; · ipureintro; exact harg12.read_unread _
    iexact H12

end Cert.KernelIdeal.Body

end
-- ==== Proof.KI.RunD.lean ====
/-
  The body at the last point, which is odd: as at any odd point, and then the odd pair just produced is itself
  contracted into the output, whole.
-/
import proofs.«137864_g5935644803188_cont_9to1c4b_610_18_alg».proof.Proof.KI.Conds

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body's run in this case, on whole buffers: the six inputs at their blocks; each buffer the case reads at
    its contents; the body runs to the end holding the inputs as they were, every buffer it only reads as it
    was, and every buffer it stores into with the case's stores written, as pieces, last store first. -/
noncomputable def runD (c : Dev nD) (i : grid0.Coords) (arg1 : Memref sig .tc .vmem S16x8192 .f32) (harg1 : arg1.IsWhole) (arg2 : Memref sig .tc .vmem S8192x128 .f32) (harg2 : arg2.IsWhole) (arg3 : Memref sig .tc .vmem S64x128 .f32) (harg3 : arg3.IsWhole) (arg4 : Memref sig .tc .vmem S1x64 .f32) (harg4 : arg4.IsWhole) (arg5 : Memref sig .tc .vmem S64x128 .f32) (harg5 : arg5.IsWhole) (arg6 : Memref sig .tc .vmem S64x1 .f32) (harg6 : arg6.IsWhole) (arg7 : Memref sig .tc .vmem S16x8192 .f32) (harg7 : arg7.IsWhole) (arg8 : Memref sig .tc .vmem S64x8192 .bf16) (harg8 : arg8.IsWhole) (arg9 : Memref sig .tc .vmem S1024x8192 .bf16) (harg9 : arg9.IsWhole) (arg10 : Memref sig .tc .vmem S1024x8192 .bf16) (harg10 : arg10.IsWhole) (arg11 : Memref sig .tc .vmem S16x1024 .bf16) (harg11 : arg11.IsWhole) (arg12 : Memref sig .tc .vmem S16x1024 .bf16) (harg12 : arg12.IsWhole) (hc0 : ¬cond0 i) (hc1 : ¬cond1 i) (hc2 : cond2 i) (hc3 : cond3 i)
    (x0 : Vec F S16x8192 .f32) (x1 : Vec F S8192x128 .f32) (x2 : Vec F S64x128 .f32) (x3 : Vec F S1x64 .f32) (x4 : Vec F S64x128 .f32) (x5 : Vec F S64x1 .f32) (xo : Vec F S16x8192 .f32) (xk : Vec F S64x8192 .bf16) (xpa : Vec F S1024x8192 .bf16) (xpb : Vec F S1024x8192 .bf16) (xwa : Vec F S16x1024 .bf16) (xwb : Vec F S16x1024 .bf16) :
    Σ' (L7 : List (View.Piece (Elt F) S16x8192 .f32)) (L10 : List (View.Piece (Elt F) S1024x8192 .bf16)), { L12 : List (View.Piece (Elt F) S16x1024 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare xo ∗ owns (c : Thread nD τ) arg8 fullShare xk ∗ owns (c : Thread nD τ) arg9 fullShare xpa ∗ owns (c : Thread nD τ) arg10 fullShare xpb ∗ owns (c : Thread nD τ) arg11 fullShare xwa ∗ owns (c : Thread nD τ) arg12 fullShare xwb
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L7) ∗ owns (c : Thread nD τ) arg8 fullShare xk ∗ owns (c : Thread nD τ) arg9 fullShare xpa ∗ (∃ f, arg10.view.loc (c : Thread nD τ) ↦[arg10.view.set]{fullShare} arg10.view.writes (Elt F) f L10) ∗ owns (c : Thread nD τ) arg11 fullShare xwa ∗ (∃ f, arg12.view.loc (c : Thread nD τ) ↦[arg12.view.set]{fullShare} arg12.view.writes (Elt F) f L12)) -∗ K ⟨⟩))
          ⊢ wp frame (wpE (defs₀ (F := F)) Variants.none c none) E (cc0__fused_body i arg1 harg1 arg2 harg2 arg3 harg3 arg4 harg4 arg5 harg5 arg6 harg6 arg7 harg7 arg8 harg8 arg9 harg9 arg10 harg10 arg11 harg11 arg12 harg12) K } := by
  refine ⟨?_, ?_, ?_, fun E K => ?run⟩
  case run =>
    simp only [cc0__fused_body_eq_skeleton]; unfold cc0__fused_body_skel
    simp only [k0_part6_eq_skeleton, k0_part7_eq_skeleton, k0_part8_eq_skeleton, k0_part9_eq_skeleton, k0_part10_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf7; obtain rfl := harg8.eq_unread hf8; obtain rfl := harg9.eq_unread hf9; obtain rfl := harg10.eq_unread hf10; obtain rfl := harg11.eq_unread hf11; obtain rfl := harg12.eq_unread hf12
    sl_exec (disch := first | exact hc0 | exact hc1 | exact hc2 | exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H7]
    · iexists _; iexact H7
    isplitl [H8]
    · iexists _; isplitr; · ipureintro; exact harg8.read_unread _
      iexact H8
    isplitl [H9]
    · iexists _; isplitr; · ipureintro; exact harg9.read_unread _
      iexact H9
    isplitl [H10]
    · iexists _; iexact H10
    isplitl [H11]
    · iexists _; isplitr; · ipureintro; exact harg11.read_unread _
      iexact H11
    iexists _; iexact H12

end Cert.KernelIdeal.Body

end
-- ==== Proof.KI.Point.lean ====
import proofs.«137864_g5935644803188_cont_9to1c4b_610_18_alg».proof.Proof.KI.RunA
import proofs.«137864_g5935644803188_cont_9to1c4b_610_18_alg».proof.Proof.KI.RunB
import proofs.«137864_g5935644803188_cont_9to1c4b_610_18_alg».proof.Proof.KI.RunC
import proofs.«137864_g5935644803188_cont_9to1c4b_610_18_alg».proof.Proof.KI.RunD

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option genInjectivity false
set_option genSizeOfSpec false

/-- What the body is handed at a point: the core, the grid position, twelve whole buffers, six input blocks. -/
structure Args (F : FTy → Type) [FloatOps F] where
  c : Dev nD
  i : grid0.Coords
  a1 : Memref sig .tc .vmem S16x8192 .f32
  h1 : a1.IsWhole
  a2 : Memref sig .tc .vmem S8192x128 .f32
  h2 : a2.IsWhole
  a3 : Memref sig .tc .vmem S64x128 .f32
  h3 : a3.IsWhole
  a4 : Memref sig .tc .vmem S1x64 .f32
  h4 : a4.IsWhole
  a5 : Memref sig .tc .vmem S64x128 .f32
  h5 : a5.IsWhole
  a6 : Memref sig .tc .vmem S64x1 .f32
  h6 : a6.IsWhole
  a7 : Memref sig .tc .vmem S16x8192 .f32
  h7 : a7.IsWhole
  a8 : Memref sig .tc .vmem S64x8192 .bf16
  h8 : a8.IsWhole
  a9 : Memref sig .tc .vmem S1024x8192 .bf16
  h9 : a9.IsWhole
  a10 : Memref sig .tc .vmem S1024x8192 .bf16
  h10 : a10.IsWhole
  a11 : Memref sig .tc .vmem S16x1024 .bf16
  h11 : a11.IsWhole
  a12 : Memref sig .tc .vmem S16x1024 .bf16
  h12 : a12.IsWhole
  x0 : Vec F S16x8192 .f32
  x1 : Vec F S8192x128 .f32
  x2 : Vec F S64x128 .f32
  x3 : Vec F S1x64 .f32
  x4 : Vec F S64x128 .f32
  x5 : Vec F S64x1 .f32

/-- The contents of the six buffers carried from point to point. -/
structure St (F : FTy → Type) [FloatOps F] where
  out : Vec F S16x8192 .f32
  kt : Vec F S64x8192 .bf16
  pa : Vec F S1024x8192 .bf16
  pb : Vec F S1024x8192 .bf16
  wa : Vec F S16x1024 .bf16
  wb : Vec F S16x1024 .bf16

/-- The four combinations of the branch conditions that occur: first; odd, not last; even, not first; last. -/
abbrev CA (i : grid0.Coords) : Prop := cond0 i ∧ cond1 i ∧ ¬cond2 i ∧ ¬cond3 i
abbrev CB (i : grid0.Coords) : Prop := ¬cond0 i ∧ ¬cond1 i ∧ cond2 i ∧ ¬cond3 i
abbrev CC (i : grid0.Coords) : Prop := ¬cond0 i ∧ cond1 i ∧ ¬cond2 i ∧ ¬cond3 i
abbrev CD (i : grid0.Coords) : Prop := ¬cond0 i ∧ ¬cond1 i ∧ cond2 i ∧ cond3 i

abbrev rA (a : Args F) (h : CA a.i) := runA a.c a.i a.a1 a.h1 a.a2 a.h2 a.a3 a.h3 a.a4 a.h4 a.a5 a.h5 a.a6 a.h6 a.a7 a.h7 a.a8 a.h8 a.a9 a.h9 a.a10 a.h10 a.a11 a.h11 a.a12 a.h12 h.1 h.2.1 h.2.2.1 h.2.2.2 a.x0 a.x1 a.x2 a.x3 a.x4 a.x5
abbrev rB (a : Args F) (h : CB a.i) (p : St F) := runB a.c a.i a.a1 a.h1 a.a2 a.h2 a.a3 a.h3 a.a4 a.h4 a.a5 a.h5 a.a6 a.h6 a.a7 a.h7 a.a8 a.h8 a.a9 a.h9 a.a10 a.h10 a.a11 a.h11 a.a12 a.h12 h.1 h.2.1 h.2.2.1 h.2.2.2 a.x0 a.x1 a.x2 a.x3 a.x4 a.x5 p.out p.kt p.pa p.pb p.wa p.wb
abbrev rC (a : Args F) (h : CC a.i) (p : St F) := runC a.c a.i a.a1 a.h1 a.a2 a.h2 a.a3 a.h3 a.a4 a.h4 a.a5 a.h5 a.a6 a.h6 a.a7 a.h7 a.a8 a.h8 a.a9 a.h9 a.a10 a.h10 a.a11 a.h11 a.a12 a.h12 h.1 h.2.1 h.2.2.1 h.2.2.2 a.x0 a.x1 a.x2 a.x3 a.x4 a.x5 p.out p.kt p.pa p.pb p.wa p.wb
abbrev rD (a : Args F) (h : CD a.i) (p : St F) := runD a.c a.i a.a1 a.h1 a.a2 a.h2 a.a3 a.h3 a.a4 a.h4 a.a5 a.h5 a.a6 a.h6 a.a7 a.h7 a.a8 a.h8 a.a9 a.h9 a.a10 a.h10 a.a11 a.h11 a.a12 a.h12 h.1 h.2.1 h.2.2.1 h.2.2.2 a.x0 a.x1 a.x2 a.x3 a.x4 a.x5 p.out p.kt p.pa p.pb p.wa p.wb

/-- Pieces of one size that tile a buffer cover it. -/
theorem coverA_out (a : Args F) (h : CA a.i) (y : S16x8192.Idx) : ∃ pc ∈ (rA a h).1, y ∈ pc.1.set :=
  View.cover_of_tiledL (rA a h).1 S16x1024.size (by sl_kernel_rfl) y

theorem coverA_kt (a : Args F) (h : CA a.i) (y : S64x8192.Idx) : ∃ pc ∈ (rA a h).2.1, y ∈ pc.1.set :=
  View.cover_of_tiledL (rA a h).2.1 S64x8192.size (by sl_kernel_rfl) y

theorem coverA_pa (a : Args F) (h : CA a.i) (y : S1024x8192.Idx) : ∃ pc ∈ (rA a h).2.2.1, y ∈ pc.1.set :=
  View.cover_of_tiledL (rA a h).2.2.1 S1024x1024.size (by sl_kernel_rfl) y

theorem coverA_pb (a : Args F) (h : CA a.i) (y : S1024x8192.Idx) : ∃ pc ∈ (rA a h).2.2.2.1, y ∈ pc.1.set :=
  View.cover_of_tiledL (rA a h).2.2.2.1 S1024x8192.size (by sl_kernel_rfl) y

theorem coverA_wa (a : Args F) (h : CA a.i) (y : S16x1024.Idx) : ∃ pc ∈ (rA a h).2.2.2.2.1, y ∈ pc.1.set :=
  View.cover_of_tiledL (rA a h).2.2.2.2.1 S16x1024.size (by sl_kernel_rfl) y

theorem coverA_wb (a : Args F) (h : CA a.i) (y : S16x1024.Idx) : ∃ pc ∈ (rA a h).2.2.2.2.2.1, y ∈ pc.1.set :=
  View.cover_of_tiledL (rA a h).2.2.2.2.2.1 S16x1024.size (by sl_kernel_rfl) y

theorem coverB_out (a : Args F) (h : CB a.i) (p : St F) (y : S16x8192.Idx) : ∃ pc ∈ (rB a h p).1, y ∈ pc.1.set :=
  View.cover_of_tiledL (rB a h p).1 S16x1024.size (by sl_kernel_rfl) y

theorem coverB_pb (a : Args F) (h : CB a.i) (p : St F) (y : S1024x8192.Idx) : ∃ pc ∈ (rB a h p).2.1, y ∈ pc.1.set :=
  View.cover_of_tiledL (rB a h p).2.1 S1024x1024.size (by sl_kernel_rfl) y

theorem coverB_wb (a : Args F) (h : CB a.i) (p : St F) (y : S16x1024.Idx) : ∃ pc ∈ (rB a h p).2.2.1, y ∈ pc.1.set :=
  View.cover_of_tiledL (rB a h p).2.2.1 S16x1024.size (by sl_kernel_rfl) y

theorem coverC_out (a : Args F) (h : CC a.i) (p : St F) (y : S16x8192.Idx) : ∃ pc ∈ (rC a h p).1, y ∈ pc.1.set :=
  View.cover_of_tiledL (rC a h p).1 S16x1024.size (by sl_kernel_rfl) y

theorem coverC_pa (a : Args F) (h : CC a.i) (p : St F) (y : S1024x8192.Idx) : ∃ pc ∈ (rC a h p).2.1, y ∈ pc.1.set :=
  View.cover_of_tiledL (rC a h p).2.1 S1024x1024.size (by sl_kernel_rfl) y

theorem coverC_wa (a : Args F) (h : CC a.i) (p : St F) (y : S16x1024.Idx) : ∃ pc ∈ (rC a h p).2.2.1, y ∈ pc.1.set :=
  View.cover_of_tiledL (rC a h p).2.2.1 S16x1024.size (by sl_kernel_rfl) y

theorem coverD_out (a : Args F) (h : CD a.i) (p : St F) (y : S16x8192.Idx) : ∃ pc ∈ (rD a h p).1, y ∈ pc.1.set :=
  View.cover_of_tiledL (rD a h p).1 S16x1024.size (by sl_kernel_rfl) y

theorem coverD_pb (a : Args F) (h : CD a.i) (p : St F) (y : S1024x8192.Idx) : ∃ pc ∈ (rD a h p).2.1, y ∈ pc.1.set :=
  View.cover_of_tiledL (rD a h p).2.1 S1024x1024.size (by sl_kernel_rfl) y

theorem coverD_wb (a : Args F) (h : CD a.i) (p : St F) (y : S16x1024.Idx) : ∃ pc ∈ (rD a h p).2.2.1, y ∈ pc.1.set :=
  View.cover_of_tiledL (rD a h p).2.2.1 S16x1024.size (by sl_kernel_rfl) y

variable (m : (ℓ : Loc nD τ sig) → Buf (Elt F) ℓ)

/-- The buffers and input blocks of point `t`. -/
abbrev pt (c : Dev nD) (t : Fin cfg0.N) : Args F :=
  ⟨c, grid0.coords t, ms0 t, hs0 t, ms1 t, hs1 t, ms2 t, hs2 t, ms3 t, hs3 t, ms4 t, hs4 t, ms5 t, hs5 t, ms6 t, hs6 t, scK, Memref.isWhole_whole _, scPa, Memref.isWhole_whole _, scPb, Memref.isWhole_whole _, scWa, Memref.isWhole_whole _, scWb, Memref.isWhole_whole _, iblk m c 0 t, iblk m c 1 t, iblk m c 2 t, iblk m c 3 t, iblk m c 4 t, iblk m c 5 t⟩

theorem lt_eight (t : Fin cfg0.N) : t.val < 8 := lt_of_lt_of_eq t.isLt (show cfg0.N = 8 from N_0)

theorem caseA (t : Fin cfg0.N) (h0 : t.val % 8 = 0) : CA (grid0.coords t) :=
  ⟨(hcond0 t).mpr h0, (hcond1 t).mpr (by omega), fun h => absurd ((hcond2 t).mp h) (by omega), fun h => absurd ((hcond3 t).mp h) (by omega)⟩

theorem caseB (t : Fin cfg0.N) (h1 : ¬t.val % 2 = 0) (h3 : ¬t.val % 8 = 7) : CB (grid0.coords t) :=
  ⟨fun h => absurd ((hcond0 t).mp h) (by omega), fun h => h1 ((hcond1 t).mp h), (hcond2 t).mpr (by omega), fun h => h3 ((hcond3 t).mp h)⟩

theorem caseC (t : Fin cfg0.N) (h0 : ¬t.val % 8 = 0) (h1 : t.val % 2 = 0) : CC (grid0.coords t) :=
  ⟨fun h => h0 ((hcond0 t).mp h), (hcond1 t).mpr h1, fun h => absurd ((hcond2 t).mp h) (by omega), fun h => absurd ((hcond3 t).mp h) (by omega)⟩

theorem caseD (t : Fin cfg0.N) (h3 : t.val % 8 = 7) : CD (grid0.coords t) :=
  ⟨fun h => absurd ((hcond0 t).mp h) (by omega), fun h => absurd ((hcond1 t).mp h) (by omega), (hcond2 t).mpr (by omega), (hcond3 t).mpr h3⟩

/-- A buffer that a covering list of stores was written into holds those stores read back, whatever it held before. -/
theorem owns_back {sh : Shape} {e : EltTy} (c : Dev nD) (mr : Memref sig .tc .vmem sh e) (V : View sig .tc .vmem sh e)
    (L : List (View.Piece (Elt F) sh e)) (hcov : ∀ y, ∃ p ∈ L, y ∈ p.1.set) :
    (iprop(∃ f, mr.view.loc (c : Thread nD τ) ↦[mr.view.set]{fullShare} mr.view.writes (Elt F) f L) : sProp 𝕄)
      ⊢ owns (c : Thread nD τ) mr fullShare (V.read (Elt F) (V.writes (Elt F) V.junk L)) := by
  iintro ⟨%f, H⟩
  unfold owns; iexists _; isplitr
  swap; · iexact H
  ipureintro; exact View.read_writes_of_cover _ _ _ _ _ hcov

end Cert.KernelIdeal.Body

end
-- ==== Proof.KI.Frame.lean ====
import proofs.«137864_g5935644803188_cont_9to1c4b_610_18_alg».proof.Proof.KI.Point
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- After the first point every carried buffer holds the point's stores, read back. -/
def stA (a : Args F) (h : CA a.i) : St F where
  out := VO.read (Elt F) (VO.writes (Elt F) VO.junk (rA a h).1)
  kt := VK.read (Elt F) (VK.writes (Elt F) VK.junk (rA a h).2.1)
  pa := VPa.read (Elt F) (VPa.writes (Elt F) VPa.junk (rA a h).2.2.1)
  pb := VPb.read (Elt F) (VPb.writes (Elt F) VPb.junk (rA a h).2.2.2.1)
  wa := VWa.read (Elt F) (VWa.writes (Elt F) VWa.junk (rA a h).2.2.2.2.1)
  wb := VWb.read (Elt F) (VWb.writes (Elt F) VWb.junk (rA a h).2.2.2.2.2.1)

/-- After a later point the buffers the case stores into hold its stores, read back; the others are as the point before left them. -/
def stB (a : Args F) (h : CB a.i) (p : St F) : St F where
  out := VO.read (Elt F) (VO.writes (Elt F) VO.junk (rB a h p).1)
  kt := p.kt
  pa := p.pa
  pb := VPb.read (Elt F) (VPb.writes (Elt F) VPb.junk (rB a h p).2.1)
  wa := p.wa
  wb := VWb.read (Elt F) (VWb.writes (Elt F) VWb.junk (rB a h p).2.2.1)

def stC (a : Args F) (h : CC a.i) (p : St F) : St F where
  out := VO.read (Elt F) (VO.writes (Elt F) VO.junk (rC a h p).1)
  kt := p.kt
  pa := VPa.read (Elt F) (VPa.writes (Elt F) VPa.junk (rC a h p).2.1)
  pb := p.pb
  wa := VWa.read (Elt F) (VWa.writes (Elt F) VWa.junk (rC a h p).2.2.1)
  wb := p.wb

def stD (a : Args F) (h : CD a.i) (p : St F) : St F where
  out := VO.read (Elt F) (VO.writes (Elt F) VO.junk (rD a h p).1)
  kt := p.kt
  pa := p.pa
  pb := VPb.read (Elt F) (VPb.writes (Elt F) VPb.junk (rD a h p).2.1)
  wa := p.wa
  wb := VWb.read (Elt F) (VWb.writes (Elt F) VWb.junk (rD a h p).2.2.1)

/-- What the carried buffers hold after the body at position `n`, by recursion on the position. -/
def stAt (c : Dev nD) : (n : ℕ) → n < cfg0.N → St F
  | 0, hn => stA (pt m c ⟨0, hn⟩) (caseA ⟨0, hn⟩ (Nat.zero_mod 8))
  | n + 1, hn =>
    if h0 : (n + 1) % 8 = 0 then
      False.elim (by have hN : n + 1 < 8 := lt_of_lt_of_eq hn (show cfg0.N = 8 from N_0); omega)
    else if h1 : (n + 1) % 2 = 0 then stC (pt m c ⟨n + 1, hn⟩) (caseC ⟨n + 1, hn⟩ h0 h1) (stAt c n (Nat.lt_of_succ_lt hn))
    else if h3 : (n + 1) % 8 = 7 then stD (pt m c ⟨n + 1, hn⟩) (caseD ⟨n + 1, hn⟩ h3) (stAt c n (Nat.lt_of_succ_lt hn))
    else stB (pt m c ⟨n + 1, hn⟩) (caseB ⟨n + 1, hn⟩ h1 h3) (stAt c n (Nat.lt_of_succ_lt hn))

theorem pred_lt (t : Fin cfg0.N) : t.val - 1 < cfg0.N := Nat.lt_of_le_of_lt (Nat.sub_le _ _) t.isLt

theorem stAt_A (c : Dev nD) (t : Fin cfg0.N) (h0 : t.val % 8 = 0) :
    stAt m c t.val t.isLt = stA (pt m c t) (caseA t h0) := by
  obtain ⟨n, hn⟩ := t
  cases n with
  | zero => exact rfl
  | succ n =>
    exfalso
    have hN : n + 1 < 8 := lt_of_lt_of_eq hn (show cfg0.N = 8 from N_0)
    have h0' : (n + 1) % 8 = 0 := h0
    omega

theorem stAt_B (c : Dev nD) (t : Fin cfg0.N) (h1 : ¬t.val % 2 = 0) (h3 : ¬t.val % 8 = 7) :
    stAt m c t.val t.isLt = stB (pt m c t) (caseB t h1 h3) (stAt m c (t.val - 1) (pred_lt t)) := by
  obtain ⟨n, hn⟩ := t
  cases n with
  | zero => exact absurd (Nat.zero_mod _) h1
  | succ n =>
    have h1' : ¬(n + 1) % 2 = 0 := h1
    have h0 : ¬(n + 1) % 8 = 0 := by omega
    exact (dif_neg h0).trans ((dif_neg h1).trans ((dif_neg h3).trans rfl))

theorem stAt_C (c : Dev nD) (t : Fin cfg0.N) (h0 : ¬t.val % 8 = 0) (h1 : t.val % 2 = 0) :
    stAt m c t.val t.isLt = stC (pt m c t) (caseC t h0 h1) (stAt m c (t.val - 1) (pred_lt t)) := by
  obtain ⟨n, hn⟩ := t
  cases n with
  | zero => exact absurd (Nat.zero_mod _) h0
  | succ n => exact (dif_neg h0).trans ((dif_pos h1).trans rfl)

theorem stAt_D (c : Dev nD) (t : Fin cfg0.N) (h3 : t.val % 8 = 7) :
    stAt m c t.val t.isLt = stD (pt m c t) (caseD t h3) (stAt m c (t.val - 1) (pred_lt t)) := by
  obtain ⟨n, hn⟩ := t
  cases n with
  | zero =>
    exfalso
    have h3' : (0 : ℕ) % 8 = 7 := h3
    omega
  | succ n =>
    have h3' : (n + 1) % 8 = 7 := h3
    have h0 : ¬(n + 1) % 8 = 0 := by omega
    have h1 : ¬(n + 1) % 2 = 0 := by omega
    exact (dif_neg h0).trans ((dif_neg h1).trans ((dif_pos h3).trans rfl))

/-- The five scratch buffers at named contents, and the generator register at some state. -/
def scAt (c : Dev nD) (S : St F) : sProp 𝕄 :=
  iprop(iprop(owns (c : Thread nD τ) scK fullShare S.kt ∗ owns (c : Thread nD τ) scPa fullShare S.pa ∗ owns (c : Thread nD τ) scPb fullShare S.pb ∗ owns (c : Thread nD τ) scWa fullShare S.wa ∗ owns (c : Thread nD τ) scWb fullShare S.wb) ∗ (∃ r, prngReg c r))

/-- The invariant before position `n`: nothing is known of the scratch buffers before the first point; afterwards they hold what the point before left. -/
def PhiS (c : Dev nD) : (n : ℕ) → n ≤ cfg0.N → sProp 𝕄
  | 0, _ => Pipeline.ΦA spec0 c
  | n + 1, hn => scAt c (stAt m c n hn)

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) : PhiS m c (n + 1) hn = scAt c (stAt m c n hn) := rfl

theorem PhiS_pos (c : Dev nD) (n : ℕ) (h : n ≤ cfg0.N) (hz : n ≠ 0) :
    PhiS m c n h = scAt c (stAt m c (n - 1) (by omega)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (stAt m c t.val t.isLt).out
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (stAt m c t.val t.isLt).out := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

theorem live6_all : ∀ i : grid0.Coords, cfg0.idle 6 i = false := by decide +kernel

theorem before6 (c : Dev nD) (t : Fin cfg0.N) (ht : t.val ≠ 0) (d) :
    (dats m 0 c).before 6 t d = (stAt m c (t.val - 1) (pred_lt t)).out := by
  have hN : t.val < 8 := lt_of_lt_of_eq t.isLt (show cfg0.N = 8 from N_0)
  rw [Dat.before_out_kept _ 6 rfl t ht (Bool.eq_false_iff.mpr fun h => by have := (flush0_6 _).mp h; dsimp only at this; omega)
    live6_all (fun _ _ => rfl)]
  dsimp only [dats]

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 20000000 in
/-- The body at any point: the point's position picks the case, the case's run applies, every buffer it stores into comes back at its stores read back, and that is the invariant at the next point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]; unfold scAt
  rw [show (dats m 0 c).leavesExact 0 t = owns (c : Thread nD τ) (ms0 t) fullShare ((dats m 0 c).after 0 t) from by
    unfold Dat.leavesExact; rw [live0 t], after0_0]
  rw [show (dats m 0 c).leavesExact 1 t = owns (c : Thread nD τ) (ms1 t) fullShare ((dats m 0 c).after 1 t) from by
    unfold Dat.leavesExact; rw [live1 t], after0_1]
  rw [show (dats m 0 c).leavesExact 2 t = owns (c : Thread nD τ) (ms2 t) fullShare ((dats m 0 c).after 2 t) from by
    unfold Dat.leavesExact; rw [live2 t], after0_2]
  rw [show (dats m 0 c).leavesExact 3 t = owns (c : Thread nD τ) (ms3 t) fullShare ((dats m 0 c).after 3 t) from by
    unfold Dat.leavesExact; rw [live3 t], after0_3]
  rw [show (dats m 0 c).leavesExact 4 t = owns (c : Thread nD τ) (ms4 t) fullShare ((dats m 0 c).after 4 t) from by
    unfold Dat.leavesExact; rw [live4 t], after0_4]
  rw [show (dats m 0 c).leavesExact 5 t = owns (c : Thread nD τ) (ms5 t) fullShare ((dats m 0 c).after 5 t) from by
    unfold Dat.leavesExact; rw [live5 t], after0_5]
  rw [show (dats m 0 c).leavesExact 6 t = owns (c : Thread nD τ) (ms6 t) fullShare ((dats m 0 c).after 6 t) from by
    unfold Dat.leavesExact; rw [live6 t], after0_6]
  have hN := lt_eight t
  by_cases h0 : t.val % 8 = 0
  · rw [stAt_A m c t h0]
    unfold stA; dsimp only
    have hz : t.val = 0 := by omega
    rw [PhiS_castSucc m c t, PhiS_zero m c _ _ hz, PhiA_eq]
    iintro ⟨⟨⟨HK, HPa, HPb, HWa, HWb⟩, Hg⟩, Ho, ⟨%d0, H0⟩, ⟨%d1, H1⟩, ⟨%d2, H2⟩, ⟨%d3, H3⟩, ⟨%d4, H4⟩, ⟨%d5, H5⟩, ⟨%d6, H6⟩⟩
    iapply ((rA (pt m c t) (caseA t h0)).2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HK]; · iexact HK
    isplitl [HPa]; · iexact HPa
    isplitl [HPb]; · iexact HPb
    isplitl [HWa]; · iexact HWa
    isplitl [HWb]; · iexact HWb
    iintro ⟨H0, H1, H2, H3, H4, H5, H6, HK, HPa, HPb, HWa, HWb⟩
    isplitl [HK HPa HPb HWa HWb Hg]
    · isplitl [HK HPa HPb HWa HWb]
      · isplitl [HK]; · iapply (owns_back c scK VK _ (coverA_kt _ _)); iexact HK
        isplitl [HPa]; · iapply (owns_back c scPa VPa _ (coverA_pa _ _)); iexact HPa
        isplitl [HPb]; · iapply (owns_back c scPb VPb _ (coverA_pb _ _)); iexact HPb
        isplitl [HWa]; · iapply (owns_back c scWa VWa _ (coverA_wa _ _)); iexact HWa
        iapply (owns_back c scWb VWb _ (coverA_wb _ _)); iexact HWb
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iapply (owns_back c (ms6 t) VO _ (coverA_out _ _)); iexact H6
  · by_cases h1 : t.val % 2 = 0
    · rw [stAt_C m c t h0 h1]
      unfold stC; dsimp only
      have hz : t.val ≠ 0 := by omega
      rw [PhiS_castSucc m c t, PhiS_pos m c _ _ hz]; unfold scAt
      simp only [before6 m c t hz]
      iintro ⟨⟨⟨HK, HPa, HPb, HWa, HWb⟩, Hg⟩, Ho, ⟨%d0, H0⟩, ⟨%d1, H1⟩, ⟨%d2, H2⟩, ⟨%d3, H3⟩, ⟨%d4, H4⟩, ⟨%d5, H5⟩, ⟨%d6, H6⟩⟩
      iapply ((rC (pt m c t) (caseC t h0 h1) (stAt m c (t.val - 1) (pred_lt t))).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HK]; · iexact HK
      isplitl [HPa]; · iexact HPa
      isplitl [HPb]; · iexact HPb
      isplitl [HWa]; · iexact HWa
      isplitl [HWb]; · iexact HWb
      iintro ⟨H0, H1, H2, H3, H4, H5, H6, HK, HPa, HPb, HWa, HWb⟩
      isplitl [HK HPa HPb HWa HWb Hg]
      · isplitl [HK HPa HPb HWa HWb]
        · isplitl [HK]; · iexact HK
          isplitl [HPa]; · iapply (owns_back c scPa VPa _ (coverC_pa _ _ _)); iexact HPa
          isplitl [HPb]; · iexact HPb
          isplitl [HWa]; · iapply (owns_back c scWa VWa _ (coverC_wa _ _ _)); iexact HWa
          iexact HWb
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iapply (owns_back c (ms6 t) VO _ (coverC_out _ _ _)); iexact H6
    · by_cases h3 : t.val % 8 = 7
      · rw [stAt_D m c t h3]
        unfold stD; dsimp only
        have hz : t.val ≠ 0 := by omega
        rw [PhiS_castSucc m c t, PhiS_pos m c _ _ hz]; unfold scAt
        simp only [before6 m c t hz]
        iintro ⟨⟨⟨HK, HPa, HPb, HWa, HWb⟩, Hg⟩, Ho, ⟨%d0, H0⟩, ⟨%d1, H1⟩, ⟨%d2, H2⟩, ⟨%d3, H3⟩, ⟨%d4, H4⟩, ⟨%d5, H5⟩, ⟨%d6, H6⟩⟩
        iapply ((rD (pt m c t) (caseD t h3) (stAt m c (t.val - 1) (pred_lt t))).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HK]; · iexact HK
        isplitl [HPa]; · iexact HPa
        isplitl [HPb]; · iexact HPb
        isplitl [HWa]; · iexact HWa
        isplitl [HWb]; · iexact HWb
        iintro ⟨H0, H1, H2, H3, H4, H5, H6, HK, HPa, HPb, HWa, HWb⟩
        isplitl [HK HPa HPb HWa HWb Hg]
        · isplitl [HK HPa HPb HWa HWb]
          · isplitl [HK]; · iexact HK
            isplitl [HPa]; · iexact HPa
            isplitl [HPb]; · iapply (owns_back c scPb VPb _ (coverD_pb _ _ _)); iexact HPb
            isplitl [HWa]; · iexact HWa
            iapply (owns_back c scWb VWb _ (coverD_wb _ _ _)); iexact HWb
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iapply (owns_back c (ms6 t) VO _ (coverD_out _ _ _)); iexact H6
      · rw [stAt_B m c t h1 h3]
        unfold stB; dsimp only
        have hz : t.val ≠ 0 := by omega
        rw [PhiS_castSucc m c t, PhiS_pos m c _ _ hz]; unfold scAt
        simp only [before6 m c t hz]
        iintro ⟨⟨⟨HK, HPa, HPb, HWa, HWb⟩, Hg⟩, Ho, ⟨%d0, H0⟩, ⟨%d1, H1⟩, ⟨%d2, H2⟩, ⟨%d3, H3⟩, ⟨%d4, H4⟩, ⟨%d5, H5⟩, ⟨%d6, H6⟩⟩
        iapply ((rB (pt m c t) (caseB t h1 h3) (stAt m c (t.val - 1) (pred_lt t))).2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [HK]; · iexact HK
        isplitl [HPa]; · iexact HPa
        isplitl [HPb]; · iexact HPb
        isplitl [HWa]; · iexact HWa
        isplitl [HWb]; · iexact HWb
        iintro ⟨H0, H1, H2, H3, H4, H5, H6, HK, HPa, HPb, HWa, HWb⟩
        isplitl [HK HPa HPb HWa HWb Hg]
        · isplitl [HK HPa HPb HWa HWb]
          · isplitl [HK]; · iexact HK
            isplitl [HPa]; · iexact HPa
            isplitl [HPb]; · iapply (owns_back c scPb VPb _ (coverB_pb _ _ _)); iexact HPb
            isplitl [HWa]; · iexact HWa
            iapply (owns_back c scWb VWb _ (coverB_wb _ _ _)); iexact HWb
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        iapply (owns_back c (ms6 t) VO _ (coverB_out _ _ _)); iexact H6

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]; unfold scAt
  iintro ⟨⟨HK, HPa, HPb, HWa, HWb⟩, Hg⟩
  isplitl [HK HPa HPb HWa HWb]
  · isplitl [HK]; · iexists _; iexact HK
    isplitl [HPa]; · iexists _; iexact HPa
    isplitl [HPb]; · iexists _; iexact HPb
    isplitl [HWa]; · iexists _; iexact HWa
    iexists _; iexact HWb
  iexact Hg

theorem hout (c : Dev nD) : (dats m 0 c).Φ (Fin.last cfg0.N) ⊢ Pipeline.ΦA spec0 c :=
  Phi_out m c _ (by rw [Fin.val_last]; have : cfg0.N = 8 := N_0; omega)

set_option backward.isDefEq.respectTransparency.types false in
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

theorem run_named : θ_run defs (onTc (τ := τ) (main (F := F))) ⟨m, fun _ => 0, ρ⟩ (fun r => ∀ c : Dev nD,
      r.2.mem ((c.tc : Thread nD τ).loc main_v2) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1 6,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 4).trans (((dats m 0 c).arrAt_in 4 rfl _).trans ((A_eq m c 4).trans (V_main_arg2 m c))),
      ((h c).2 main_arg3 (Pipeline.mem_restRefs_of main_arg3 (by decide) (by decide))).trans (V_main_arg3 m c),
      ((h c).1 2).trans (((dats m 0 c).arrAt_in 2 rfl _).trans ((A_eq m c 2).trans (V_main_arg4 m c))),
      ((h c).2 main_arg5 (Pipeline.mem_restRefs_of main_arg5 (by decide) (by decide))).trans (V_main_arg5 m c)⟩) (run_main m ρ)

abbrev result (c : Dev nD) : Buf (Elt F) ((c : Thread nD τ).loc main_v2) :=
  (stAt m c 7 (by rw [show cfg0.N = 8 from N_0]; decide)).out

theorem off7 : (fun a => win0_6.index t0_7 a * main_v2.ty.shape.size a) = fun _ => 0 :=
  funext fun a => match a with
    | ⟨0, _⟩ => show win0_6.index t0_7 0 * main_v2.ty.shape.size 0 = 0 from by decide +kernel
    | ⟨1, _⟩ => show win0_6.index t0_7 1 * main_v2.ty.shape.size 1 = 0 from by decide +kernel

theorem flushed_eq (c : Dev nD) (t : Fin cfg0.N) (hf : (cfg0.win 6).flush t = true) :
    (dats m 0 c).flushed 6 t = ((cfg0.win 6).blk t).view.read (Elt F) (result m c) := by
  have hN : cfg0.N = 8 := N_0
  have h7 : t.val = 7 := by have := (flush0_6 t).mp hf; have := t.isLt; omega
  obtain rfl : t = t0_7 := Fin.ext h7
  show (cfg0.win 6).cut (grid0.coords t0_7) ((dats m 0 c).after 6 t0_7) = _
  rw [after0_6]
  exact (Memref.read_access_unit_zero (Elt F) main_v2 off7 (fun a => by rw [congrFun off7 a]; simp) (result m c)).symm

theorem mem_blk7 (c : Dev nD) (i : ((cfg0.win 6).arr.view.loc (c.tc : Thread nD τ)).2.ty.Idx) :
    i ∈ ((cfg0.win 6).blk t0_7).view.set := by
  show i ∈ ((View.whole main_v2).slice (win0_6.rect t0_7)).set
  rw [View.set_slice_whole, Rect.mem_set_unit]
  intro a
  have h0 : (i 0 : Nat) < 16 := (i 0).isLt
  have h1 : (i 1 : Nat) < 8192 := (i 1).isLt
  match a with
  | ⟨0, _⟩ =>
    show win0_6.index t0_7 0 * win0_6.size 0 ≤ (i 0 : Nat) ∧ (i 0 : Nat) < win0_6.index t0_7 0 * win0_6.size 0 + win0_6.xsize (grid0.coords t0_7) 0
    rw [show win0_6.index t0_7 0 * win0_6.size 0 = 0 from by decide +kernel, show win0_6.xsize (grid0.coords t0_7) 0 = 16 from by decide +kernel]
    omega
  | ⟨1, _⟩ =>
    show win0_6.index t0_7 1 * win0_6.size 1 ≤ (i 1 : Nat) ∧ (i 1 : Nat) < win0_6.index t0_7 1 * win0_6.size 1 + win0_6.xsize (grid0.coords t0_7) 1
    rw [show win0_6.index t0_7 1 * win0_6.size 1 = 0 from by decide +kernel, show win0_6.xsize (grid0.coords t0_7) 1 = 8192 from by decide +kernel]
    omega

theorem out_final (c : Dev nD) : (dats m 0 c).arrAt 6 cfg0.N = result m c :=
  (dats m 0 c).arrAt_eq_of_cover 6 (result m c) (flushed_eq m c) fun i =>
    ⟨t0_7, (flush0_6 t0_7).mpr rfl, mem_blk7 c i⟩

end Cert.KernelIdeal.Body

end
-- ==== Proof.KI.Pay.lean ====
import proofs.«137864_g5935644803188_cont_9to1c4b_610_18_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen Idealize.ShloMosaic Idealize.ShloMosaic.ValueIdx

section Column
variable {α : Type}

theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

theorem lift_row {m n : ℕ} (h : (⟨2, ![m, n]⟩ : Shape).Reduces [1] (⟨1, ![m]⟩ : Shape)) (r : Fin m)
    (k : Fin ((⟨2, ![m, n]⟩ : Shape).size 1)) : h.lift (ix1 r) k = ix2 r (⟨k.val, k.isLt⟩ : Fin n) := by
  funext c; apply Fin.ext
  match c with
  | ⟨0, _⟩ => rfl
  | ⟨1, _⟩ => rfl

end Column

def rs (v : FVec Ideal S1024x1024 .f32) (r : Fin 1024) : EReal := ∑ j : Fin 1024, v (ix2 r j)

theorem rowsum_col (v : FVec Ideal S1024x1024 .f32) (h : S1024x1024.Reduces [1] S1024) (hφ : FKind.Formats .f32)
    (hacc : (0x00000000#32 : BitVec 32) = FKind.add.neutral .f32 hφ) (hc : S1024.ShapeCasts S1024x1)
    (r : Fin 1024) (u : Fin 1) :
    shapeCast S1024x1 (multiReduction (F := Ideal) .add [1] S1024 v 0x00000000#32 h hφ hacc) hc (ix2 r u) = rs v r := by
  refine (shapeCast_a_a1_apply _ hc r u).trans ?_
  refine (Ideal.multiReduction_add_single v _ h hφ hacc (ix1 r)).trans ?_
  unfold rs
  exact Finset.sum_congr rfl fun k _ => congrArg v (lift_row h r k)

def addRows (z : FVec Ideal S1024x1 .f32) (v : FVec Ideal S1024x1024 .f32) : FVec Ideal S1024x1 .f32 :=
  addf z (shapeCast S1024x1 (multiReduction (F := Ideal) .add [1] S1024 v 0x00000000#32
    Facts₀.reduces_S1024x1024_S1024 (.inl rfl) rfl) Facts₀.shapeCasts_S1024_S1024x1)

theorem addRows_apply (z : FVec Ideal S1024x1 .f32) (v : FVec Ideal S1024x1024 .f32) (r : Fin 1024) (u : Fin 1) :
    addRows z v (ix2 r u) = z (ix2 r u) + rs v r := by
  unfold addRows
  rw [addf_apply]
  exact congrArg (z (ix2 r u) + ·) (rowsum_col v _ _ _ _ r u)

theorem lhs_kt_0 (i : S64x8192.Idx) (q : dot_S64x128_S8192x128_S64x8192_1_1_0_0_n_n.contr.Idx) :
    (dot_S64x128_S8192x128_S64x8192_1_1_0_0_n_n.lhsIdx i q 0).val = (i 0).val := by
  unfold DotDims.lhsIdx
  rw [dif_neg (show ¬(0 : Fin S64x128.rank) ∈ dot_S64x128_S8192x128_S64x8192_1_1_0_0_n_n.lhsBatch by decide), dif_pos (show (0 : Fin S64x128.rank) ∈ dot_S64x128_S8192x128_S64x8192_1_1_0_0_n_n.lhsNonContracting by decide)]
  rfl
theorem lhs_kt_1 (i : S64x8192.Idx) (q : dot_S64x128_S8192x128_S64x8192_1_1_0_0_n_n.contr.Idx) :
    (dot_S64x128_S8192x128_S64x8192_1_1_0_0_n_n.lhsIdx i q 1).val = (q ⟨0, by decide⟩).val :=
  dot_S64x128_S8192x128_S64x8192_1_1_0_0_n_n.lhsIdx_val_of_single rfl i q
theorem rhs_kt_1 (i : S64x8192.Idx) (q : dot_S64x128_S8192x128_S64x8192_1_1_0_0_n_n.contr.Idx) :
    (dot_S64x128_S8192x128_S64x8192_1_1_0_0_n_n.rhsIdx i q 1).val = (q ⟨0, by decide⟩).val :=
  dot_S64x128_S8192x128_S64x8192_1_1_0_0_n_n.rhsIdx_val_of_single rfl i q
theorem rhs_kt_0 (i : S64x8192.Idx) (q : dot_S64x128_S8192x128_S64x8192_1_1_0_0_n_n.contr.Idx) :
    (dot_S64x128_S8192x128_S64x8192_1_1_0_0_n_n.rhsIdx i q 0).val = (i 1).val := by
  unfold DotDims.rhsIdx
  rw [dif_neg (show ¬(0 : Fin S8192x128.rank) ∈ dot_S64x128_S8192x128_S64x8192_1_1_0_0_n_n.rhsBatch by decide), dif_pos (show (0 : Fin S8192x128.rank) ∈ dot_S64x128_S8192x128_S64x8192_1_1_0_0_n_n.rhsNonContracting by decide)]
  rfl

/-- With one contracted axis the product into a zero accumulator is a plain sum over that axis; the axis lemmas identify the record's index maps with coordinates. -/
theorem dot_kt_apply (x : FVec Ideal S64x128 .f32) (y : FVec Ideal S8192x128 .f32) (r : Fin 64) (c : Fin 8192) :
    FloatOps.matmul (F := Ideal) dot_S64x128_S8192x128_S64x8192_1_1_0_0_n_n none x y (constant (F := Ideal) S64x8192 .f32 0x00000000#32) (ix2 r c)
      = ∑ k : Fin 128, x (ix2 r k) * y (ix2 c k) := by
  rw [Ideal.matmul_constant_zero_apply, ← Equiv.sum_comp (contrEquiv1 dot_S64x128_S8192x128_S64x8192_1_1_0_0_n_n 128 rfl rfl).symm]
  refine Finset.sum_congr rfl fun k _ => ?_
  have hk := contrEquiv1_symm_val dot_S64x128_S8192x128_S64x8192_1_1_0_0_n_n 128 rfl rfl k
  have el : dot_S64x128_S8192x128_S64x8192_1_1_0_0_n_n.lhsIdx (ix2 r c) ((contrEquiv1 dot_S64x128_S8192x128_S64x8192_1_1_0_0_n_n 128 rfl rfl).symm k) = ix2 r k := funext fun a => Fin.ext (by
    match a with
    | ⟨0, _⟩ => exact lhs_kt_0 _ _
    | ⟨1, _⟩ => exact (lhs_kt_1 _ _).trans hk)
  have er : dot_S64x128_S8192x128_S64x8192_1_1_0_0_n_n.rhsIdx (ix2 r c) ((contrEquiv1 dot_S64x128_S8192x128_S64x8192_1_1_0_0_n_n 128 rfl rfl).symm k) = ix2 c k := funext fun a => Fin.ext (by
    match a with
    | ⟨0, _⟩ => exact rhs_kt_0 _ _
    | ⟨1, _⟩ => exact (rhs_kt_1 _ _).trans hk)
  rw [el, er]

theorem lhs_q_0 (i : S1024x64.Idx) (q : dot_S1024x128_S64x128_S1024x64_1_1_0_0_n_n.contr.Idx) :
    (dot_S1024x128_S64x128_S1024x64_1_1_0_0_n_n.lhsIdx i q 0).val = (i 0).val := by
  unfold DotDims.lhsIdx
  rw [dif_neg (show ¬(0 : Fin S1024x128.rank) ∈ dot_S1024x128_S64x128_S1024x64_1_1_0_0_n_n.lhsBatch by decide), dif_pos (show (0 : Fin S1024x128.rank) ∈ dot_S1024x128_S64x128_S1024x64_1_1_0_0_n_n.lhsNonContracting by decide)]
  rfl
theorem lhs_q_1 (i : S1024x64.Idx) (q : dot_S1024x128_S64x128_S1024x64_1_1_0_0_n_n.contr.Idx) :
    (dot_S1024x128_S64x128_S1024x64_1_1_0_0_n_n.lhsIdx i q 1).val = (q ⟨0, by decide⟩).val :=
  dot_S1024x128_S64x128_S1024x64_1_1_0_0_n_n.lhsIdx_val_of_single rfl i q
theorem rhs_q_1 (i : S1024x64.Idx) (q : dot_S1024x128_S64x128_S1024x64_1_1_0_0_n_n.contr.Idx) :
    (dot_S1024x128_S64x128_S1024x64_1_1_0_0_n_n.rhsIdx i q 1).val = (q ⟨0, by decide⟩).val :=
  dot_S1024x128_S64x128_S1024x64_1_1_0_0_n_n.rhsIdx_val_of_single rfl i q
theorem rhs_q_0 (i : S1024x64.Idx) (q : dot_S1024x128_S64x128_S1024x64_1_1_0_0_n_n.contr.Idx) :
    (dot_S1024x128_S64x128_S1024x64_1_1_0_0_n_n.rhsIdx i q 0).val = (i 1).val := by
  unfold DotDims.rhsIdx
  rw [dif_neg (show ¬(0 : Fin S64x128.rank) ∈ dot_S1024x128_S64x128_S1024x64_1_1_0_0_n_n.rhsBatch by decide), dif_pos (show (0 : Fin S64x128.rank) ∈ dot_S1024x128_S64x128_S1024x64_1_1_0_0_n_n.rhsNonContracting by decide)]
  rfl

theorem dot_q_apply (x : FVec Ideal S1024x128 .f32) (y : FVec Ideal S64x128 .f32) (r : Fin 1024) (c : Fin 64) :
    FloatOps.matmul (F := Ideal) dot_S1024x128_S64x128_S1024x64_1_1_0_0_n_n none x y (constant (F := Ideal) S1024x64 .f32 0x00000000#32) (ix2 r c)
      = ∑ k : Fin 128, x (ix2 r k) * y (ix2 c k) := by
  rw [Ideal.matmul_constant_zero_apply, ← Equiv.sum_comp (contrEquiv1 dot_S1024x128_S64x128_S1024x64_1_1_0_0_n_n 128 rfl rfl).symm]
  refine Finset.sum_congr rfl fun k _ => ?_
  have hk := contrEquiv1_symm_val dot_S1024x128_S64x128_S1024x64_1_1_0_0_n_n 128 rfl rfl k
  have el : dot_S1024x128_S64x128_S1024x64_1_1_0_0_n_n.lhsIdx (ix2 r c) ((contrEquiv1 dot_S1024x128_S64x128_S1024x64_1_1_0_0_n_n 128 rfl rfl).symm k) = ix2 r k := funext fun a => Fin.ext (by
    match a with
    | ⟨0, _⟩ => exact lhs_q_0 _ _
    | ⟨1, _⟩ => exact (lhs_q_1 _ _).trans hk)
  have er : dot_S1024x128_S64x128_S1024x64_1_1_0_0_n_n.rhsIdx (ix2 r c) ((contrEquiv1 dot_S1024x128_S64x128_S1024x64_1_1_0_0_n_n 128 rfl rfl).symm k) = ix2 c k := funext fun a => Fin.ext (by
    match a with
    | ⟨0, _⟩ => exact rhs_q_0 _ _
    | ⟨1, _⟩ => exact (rhs_q_1 _ _).trans hk)
  rw [el, er]

theorem lhs_qk_0 (i : S1024x1024.Idx) (q : dot_S1024x64_S64x1024_S1024x1024_1_0_0_1_n_n.contr.Idx) :
    (dot_S1024x64_S64x1024_S1024x1024_1_0_0_1_n_n.lhsIdx i q 0).val = (i 0).val := by
  unfold DotDims.lhsIdx
  rw [dif_neg (show ¬(0 : Fin S1024x64.rank) ∈ dot_S1024x64_S64x1024_S1024x1024_1_0_0_1_n_n.lhsBatch by decide), dif_pos (show (0 : Fin S1024x64.rank) ∈ dot_S1024x64_S64x1024_S1024x1024_1_0_0_1_n_n.lhsNonContracting by decide)]
  rfl
theorem lhs_qk_1 (i : S1024x1024.Idx) (q : dot_S1024x64_S64x1024_S1024x1024_1_0_0_1_n_n.contr.Idx) :
    (dot_S1024x64_S64x1024_S1024x1024_1_0_0_1_n_n.lhsIdx i q 1).val = (q ⟨0, by decide⟩).val :=
  dot_S1024x64_S64x1024_S1024x1024_1_0_0_1_n_n.lhsIdx_val_of_single rfl i q
theorem rhs_qk_0 (i : S1024x1024.Idx) (q : dot_S1024x64_S64x1024_S1024x1024_1_0_0_1_n_n.contr.Idx) :
    (dot_S1024x64_S64x1024_S1024x1024_1_0_0_1_n_n.rhsIdx i q 0).val = (q ⟨0, by decide⟩).val :=
  dot_S1024x64_S64x1024_S1024x1024_1_0_0_1_n_n.rhsIdx_val_of_single rfl i q
theorem rhs_qk_1 (i : S1024x1024.Idx) (q : dot_S1024x64_S64x1024_S1024x1024_1_0_0_1_n_n.contr.Idx) :
    (dot_S1024x64_S64x1024_S1024x1024_1_0_0_1_n_n.rhsIdx i q 1).val = (i 1).val := by
  unfold DotDims.rhsIdx
  rw [dif_neg (show ¬(1 : Fin S64x1024.rank) ∈ dot_S1024x64_S64x1024_S1024x1024_1_0_0_1_n_n.rhsBatch by decide), dif_pos (show (1 : Fin S64x1024.rank) ∈ dot_S1024x64_S64x1024_S1024x1024_1_0_0_1_n_n.rhsNonContracting by decide)]
  rfl

theorem dot_qk_apply (x : FVec Ideal S1024x64 .bf16) (y : FVec Ideal S64x1024 .bf16) (r : Fin 1024) (c : Fin 1024) :
    FloatOps.matmul (F := Ideal) dot_S1024x64_S64x1024_S1024x1024_1_0_0_1_n_n none x y (constant (F := Ideal) S1024x1024 .f32 0x00000000#32) (ix2 r c)
      = ∑ k : Fin 64, x (ix2 r k) * y (ix2 k c) := by
  rw [Ideal.matmul_constant_zero_apply, ← Equiv.sum_comp (contrEquiv1 dot_S1024x64_S64x1024_S1024x1024_1_0_0_1_n_n 64 rfl rfl).symm]
  refine Finset.sum_congr rfl fun k _ => ?_
  have hk := contrEquiv1_symm_val dot_S1024x64_S64x1024_S1024x1024_1_0_0_1_n_n 64 rfl rfl k
  have el : dot_S1024x64_S64x1024_S1024x1024_1_0_0_1_n_n.lhsIdx (ix2 r c) ((contrEquiv1 dot_S1024x64_S64x1024_S1024x1024_1_0_0_1_n_n 64 rfl rfl).symm k) = ix2 r k := funext fun a => Fin.ext (by
    match a with
    | ⟨0, _⟩ => exact lhs_qk_0 _ _
    | ⟨1, _⟩ => exact (lhs_qk_1 _ _).trans hk)
  have er : dot_S1024x64_S64x1024_S1024x1024_1_0_0_1_n_n.rhsIdx (ix2 r c) ((contrEquiv1 dot_S1024x64_S64x1024_S1024x1024_1_0_0_1_n_n 64 rfl rfl).symm k) = ix2 k c := funext fun a => Fin.ext (by
    match a with
    | ⟨0, _⟩ => exact (rhs_qk_0 _ _).trans hk
    | ⟨1, _⟩ => exact rhs_qk_1 _ _)
  rw [el, er]

theorem lhs_pv_0 (i : S16x1024.Idx) (q : dot_S16x1024_S1024x1024_S16x1024_1_0_0_1_n_n.contr.Idx) :
    (dot_S16x1024_S1024x1024_S16x1024_1_0_0_1_n_n.lhsIdx i q 0).val = (i 0).val := by
  unfold DotDims.lhsIdx
  rw [dif_neg (show ¬(0 : Fin S16x1024.rank) ∈ dot_S16x1024_S1024x1024_S16x1024_1_0_0_1_n_n.lhsBatch by decide), dif_pos (show (0 : Fin S16x1024.rank) ∈ dot_S16x1024_S1024x1024_S16x1024_1_0_0_1_n_n.lhsNonContracting by decide)]
  rfl
theorem lhs_pv_1 (i : S16x1024.Idx) (q : dot_S16x1024_S1024x1024_S16x1024_1_0_0_1_n_n.contr.Idx) :
    (dot_S16x1024_S1024x1024_S16x1024_1_0_0_1_n_n.lhsIdx i q 1).val = (q ⟨0, by decide⟩).val :=
  dot_S16x1024_S1024x1024_S16x1024_1_0_0_1_n_n.lhsIdx_val_of_single rfl i q
theorem rhs_pv_0 (i : S16x1024.Idx) (q : dot_S16x1024_S1024x1024_S16x1024_1_0_0_1_n_n.contr.Idx) :
    (dot_S16x1024_S1024x1024_S16x1024_1_0_0_1_n_n.rhsIdx i q 0).val = (q ⟨0, by decide⟩).val :=
  dot_S16x1024_S1024x1024_S16x1024_1_0_0_1_n_n.rhsIdx_val_of_single rfl i q
theorem rhs_pv_1 (i : S16x1024.Idx) (q : dot_S16x1024_S1024x1024_S16x1024_1_0_0_1_n_n.contr.Idx) :
    (dot_S16x1024_S1024x1024_S16x1024_1_0_0_1_n_n.rhsIdx i q 1).val = (i 1).val := by
  unfold DotDims.rhsIdx
  rw [dif_neg (show ¬(1 : Fin S1024x1024.rank) ∈ dot_S16x1024_S1024x1024_S16x1024_1_0_0_1_n_n.rhsBatch by decide), dif_pos (show (1 : Fin S1024x1024.rank) ∈ dot_S16x1024_S1024x1024_S16x1024_1_0_0_1_n_n.rhsNonContracting by decide)]
  rfl

theorem dot_pv_apply (x : FVec Ideal S16x1024 .bf16) (y : FVec Ideal S1024x1024 .bf16) (r : Fin 16) (c : Fin 1024) :
    FloatOps.matmul (F := Ideal) dot_S16x1024_S1024x1024_S16x1024_1_0_0_1_n_n none x y (constant (F := Ideal) S16x1024 .f32 0x00000000#32) (ix2 r c)
      = ∑ k : Fin 1024, x (ix2 r k) * y (ix2 k c) := by
  rw [Ideal.matmul_constant_zero_apply, ← Equiv.sum_comp (contrEquiv1 dot_S16x1024_S1024x1024_S16x1024_1_0_0_1_n_n 1024 rfl rfl).symm]
  refine Finset.sum_congr rfl fun k _ => ?_
  have hk := contrEquiv1_symm_val dot_S16x1024_S1024x1024_S16x1024_1_0_0_1_n_n 1024 rfl rfl k
  have el : dot_S16x1024_S1024x1024_S16x1024_1_0_0_1_n_n.lhsIdx (ix2 r c) ((contrEquiv1 dot_S16x1024_S1024x1024_S16x1024_1_0_0_1_n_n 1024 rfl rfl).symm k) = ix2 r k := funext fun a => Fin.ext (by
    match a with
    | ⟨0, _⟩ => exact lhs_pv_0 _ _
    | ⟨1, _⟩ => exact (lhs_pv_1 _ _).trans hk)
  have er : dot_S16x1024_S1024x1024_S16x1024_1_0_0_1_n_n.rhsIdx (ix2 r c) ((contrEquiv1 dot_S16x1024_S1024x1024_S16x1024_1_0_0_1_n_n 1024 rfl rfl).symm k) = ix2 k c := funext fun a => Fin.ext (by
    match a with
    | ⟨0, _⟩ => exact (rhs_pv_0 _ _).trans hk
    | ⟨1, _⟩ => exact rhs_pv_1 _ _)
  rw [el, er]

theorem lhs_tail_0 (i : S16x8192.Idx) (q : dot_S16x1024_S1024x8192_S16x8192_1_0_0_1_n_n.contr.Idx) :
    (dot_S16x1024_S1024x8192_S16x8192_1_0_0_1_n_n.lhsIdx i q 0).val = (i 0).val := by
  unfold DotDims.lhsIdx
  rw [dif_neg (show ¬(0 : Fin S16x1024.rank) ∈ dot_S16x1024_S1024x8192_S16x8192_1_0_0_1_n_n.lhsBatch by decide), dif_pos (show (0 : Fin S16x1024.rank) ∈ dot_S16x1024_S1024x8192_S16x8192_1_0_0_1_n_n.lhsNonContracting by decide)]
  rfl
theorem lhs_tail_1 (i : S16x8192.Idx) (q : dot_S16x1024_S1024x8192_S16x8192_1_0_0_1_n_n.contr.Idx) :
    (dot_S16x1024_S1024x8192_S16x8192_1_0_0_1_n_n.lhsIdx i q 1).val = (q ⟨0, by decide⟩).val :=
  dot_S16x1024_S1024x8192_S16x8192_1_0_0_1_n_n.lhsIdx_val_of_single rfl i q
theorem rhs_tail_0 (i : S16x8192.Idx) (q : dot_S16x1024_S1024x8192_S16x8192_1_0_0_1_n_n.contr.Idx) :
    (dot_S16x1024_S1024x8192_S16x8192_1_0_0_1_n_n.rhsIdx i q 0).val = (q ⟨0, by decide⟩).val :=
  dot_S16x1024_S1024x8192_S16x8192_1_0_0_1_n_n.rhsIdx_val_of_single rfl i q
theorem rhs_tail_1 (i : S16x8192.Idx) (q : dot_S16x1024_S1024x8192_S16x8192_1_0_0_1_n_n.contr.Idx) :
    (dot_S16x1024_S1024x8192_S16x8192_1_0_0_1_n_n.rhsIdx i q 1).val = (i 1).val := by
  unfold DotDims.rhsIdx
  rw [dif_neg (show ¬(1 : Fin S1024x8192.rank) ∈ dot_S16x1024_S1024x8192_S16x8192_1_0_0_1_n_n.rhsBatch by decide), dif_pos (show (1 : Fin S1024x8192.rank) ∈ dot_S16x1024_S1024x8192_S16x8192_1_0_0_1_n_n.rhsNonContracting by decide)]
  rfl

theorem dot_tail_apply (x : FVec Ideal S16x1024 .bf16) (y : FVec Ideal S1024x8192 .bf16) (r : Fin 16) (c : Fin 8192) :
    FloatOps.matmul (F := Ideal) dot_S16x1024_S1024x8192_S16x8192_1_0_0_1_n_n none x y (constant (F := Ideal) S16x8192 .f32 0x00000000#32) (ix2 r c)
      = ∑ k : Fin 1024, x (ix2 r k) * y (ix2 k c) := by
  rw [Ideal.matmul_constant_zero_apply, ← Equiv.sum_comp (contrEquiv1 dot_S16x1024_S1024x8192_S16x8192_1_0_0_1_n_n 1024 rfl rfl).symm]
  refine Finset.sum_congr rfl fun k _ => ?_
  have hk := contrEquiv1_symm_val dot_S16x1024_S1024x8192_S16x8192_1_0_0_1_n_n 1024 rfl rfl k
  have el : dot_S16x1024_S1024x8192_S16x8192_1_0_0_1_n_n.lhsIdx (ix2 r c) ((contrEquiv1 dot_S16x1024_S1024x8192_S16x8192_1_0_0_1_n_n 1024 rfl rfl).symm k) = ix2 r k := funext fun a => Fin.ext (by
    match a with
    | ⟨0, _⟩ => exact lhs_tail_0 _ _
    | ⟨1, _⟩ => exact (lhs_tail_1 _ _).trans hk)
  have er : dot_S16x1024_S1024x8192_S16x8192_1_0_0_1_n_n.rhsIdx (ix2 r c) ((contrEquiv1 dot_S16x1024_S1024x8192_S16x8192_1_0_0_1_n_n 1024 rfl rfl).symm k) = ix2 k c := funext fun a => Fin.ext (by
    match a with
    | ⟨0, _⟩ => exact (rhs_tail_0 _ _).trans hk
    | ⟨1, _⟩ => exact rhs_tail_1 _ _)
  rw [el, er]

theorem p_apply (v22 : FVec Ideal S1024x64 .bf16) (v58 : FVec Ideal S64x1024 .bf16) (r j : Fin 1024) :
    k0_pay16 (F := Ideal) v22 v58 (ix2 r j) = Ideal.exp (∑ h : Fin 64, v22 (ix2 r h) * v58 (ix2 h j)) := by
  have step : k0_pay16 (F := Ideal) v22 v58 (ix2 r j) = Ideal.exp (FloatOps.matmul (F := Ideal) dot_S1024x64_S64x1024_S1024x1024_1_0_0_1_n_n none v22 v58 (constant (F := Ideal) S1024x1024 .f32 0x00000000#32) (ix2 r j)) := rfl
  rw [step, dot_qk_apply]

theorem pay20_eq : @k0_pay20 = @k0_pay16 := rfl
theorem pay23_eq : @k0_pay23 = @k0_pay16 := rfl
theorem pay28_eq : @k0_pay28 = @k0_pay16 := rfl
theorem pay31_eq : @k0_pay31 = @k0_pay16 := rfl
theorem pay35_eq : @k0_pay35 = @k0_pay16 := rfl
theorem pay47_eq : @k0_pay47 = @k0_pay16 := rfl
theorem pay51_eq : @k0_pay51 = @k0_pay16 := rfl
theorem pay54_eq : @k0_pay54 = @k0_pay16 := rfl
theorem pay59_eq : @k0_pay59 = @k0_pay16 := rfl
theorem pay62_eq : @k0_pay62 = @k0_pay16 := rfl
theorem pay66_eq : @k0_pay66 = @k0_pay16 := rfl

theorem pay9_eq {F : FTy → Type} [FloatOps F] (v15 : Vec F S1024x128 .f32) (v16 : Vec F S64x128 .f32)
    (v18 : Vec F S1x64 .f32) (v24 : Vec F S64x1024 .bf16) :
    k0_pay9 v15 v16 v18 v24 = k0_pay16 (k0_pay8 v15 v16 v18) v24 := rfl
theorem pay13_eq : @k0_pay13 = @k0_pay9 := rfl
theorem pay40_eq : @k0_pay40 = @k0_pay9 := rfl
theorem pay44_eq : @k0_pay44 = @k0_pay9 := rfl

theorem pay18_id (v22 : FVec Ideal S1024x64 .bf16) (v58 : FVec Ideal S64x1024 .bf16) :
    k0_pay18 (F := Ideal) v22 v58 = k0_pay16 (F := Ideal) v22 v58 := by
  have step : k0_pay18 (F := Ideal) v22 v58 = shapeCast S1024x1024 (k0_pay16 (F := Ideal) v22 v58) Facts₀.shapeCasts_S1024x1024_S1024x1024 := rfl
  rw [step, shapeCast_self]
theorem pay21_eq : @k0_pay21 = @k0_pay18 := rfl
theorem pay25_eq : @k0_pay25 = @k0_pay18 := rfl
theorem pay29_eq : @k0_pay29 = @k0_pay18 := rfl
theorem pay33_eq : @k0_pay33 = @k0_pay18 := rfl
theorem pay36_eq : @k0_pay36 = @k0_pay18 := rfl
theorem pay49_eq : @k0_pay49 = @k0_pay18 := rfl
theorem pay52_eq : @k0_pay52 = @k0_pay18 := rfl
theorem pay56_eq : @k0_pay56 = @k0_pay18 := rfl
theorem pay60_eq : @k0_pay60 = @k0_pay18 := rfl
theorem pay64_eq : @k0_pay64 = @k0_pay18 := rfl
theorem pay67_eq : @k0_pay67 = @k0_pay18 := rfl

theorem pay11_eq {F : FTy → Type} [FloatOps F] (v15 : Vec F S1024x128 .f32) (v16 : Vec F S64x128 .f32)
    (v18 : Vec F S1x64 .f32) (v24 : Vec F S64x1024 .bf16) :
    k0_pay11 v15 v16 v18 v24 = k0_pay18 (k0_pay8 v15 v16 v18) v24 := rfl
theorem pay42_eq : @k0_pay42 = @k0_pay11 := rfl

theorem pay14_id (v43 : FVec Ideal S1024x1024 .f32) : k0_pay14 (F := Ideal) v43 = v43 := by
  have step : k0_pay14 (F := Ideal) v43 = shapeCast S1024x1024 v43 Facts₀.shapeCasts_S1024x1024_S1024x1024 := rfl
  rw [step, shapeCast_self]
theorem pay45_eq : @k0_pay45 = @k0_pay14 := rfl

theorem pay5_id (v166 : FVec Ideal S16x1024 .bf16) : k0_pay5 (F := Ideal) v166 = v166 := shapeCast_self _ _
theorem pay6_id (v166 : FVec Ideal S16x1024 .bf16) : k0_pay6 (F := Ideal) v166 = v166 := shapeCast_self _ _

theorem acc_apply (v34 : FVec Ideal S16x1024 .f32) (v36 : FVec Ideal S16x1024 .bf16) (v37 : FVec Ideal S1024x1024 .bf16)
    (a : Fin 16) (j : Fin 1024) :
    k0_pay12 (F := Ideal) v34 v36 v37 (ix2 a j) = v34 (ix2 a j) + ∑ r : Fin 1024, v36 (ix2 a r) * v37 (ix2 r j) := by
  have step : k0_pay12 (F := Ideal) v34 v36 v37 (ix2 a j)
      = shapeCast S16x1024 v34 Facts₀.shapeCasts_S16x1024_S16x1024 (ix2 a j)
        + FloatOps.matmul (F := Ideal) dot_S16x1024_S1024x1024_S16x1024_1_0_0_1_n_n none v36 v37 (constant (F := Ideal) S16x1024 .f32 0x00000000#32) (ix2 a j) := rfl
  rw [step, shapeCast_self, dot_pv_apply]
theorem pay15_eq : @k0_pay15 = @k0_pay12 := rfl
theorem pay19_eq : @k0_pay19 = @k0_pay12 := rfl
theorem pay22_eq : @k0_pay22 = @k0_pay12 := rfl
theorem pay30_eq : @k0_pay30 = @k0_pay12 := rfl
theorem pay34_eq : @k0_pay34 = @k0_pay12 := rfl
theorem pay37_eq : @k0_pay37 = @k0_pay12 := rfl
theorem pay43_eq : @k0_pay43 = @k0_pay12 := rfl
theorem pay46_eq : @k0_pay46 = @k0_pay12 := rfl
theorem pay50_eq : @k0_pay50 = @k0_pay12 := rfl
theorem pay53_eq : @k0_pay53 = @k0_pay12 := rfl
theorem pay61_eq : @k0_pay61 = @k0_pay12 := rfl
theorem pay65_eq : @k0_pay65 = @k0_pay12 := rfl
theorem pay68_eq : @k0_pay68 = @k0_pay12 := rfl

theorem pay26_id (v102 : FVec Ideal S16x1024 .f32) : k0_pay26 (F := Ideal) v102 = v102 := shapeCast_self _ _
theorem pay57_eq : @k0_pay57 = @k0_pay26 := rfl

theorem acc27_apply (v103 : FVec Ideal S16x1024 .f32) (v104 : FVec Ideal S16x1024 .bf16) (v105 : FVec Ideal S1024x1024 .bf16)
    (a : Fin 16) (j : Fin 1024) :
    k0_pay27 (F := Ideal) v103 v104 v105 (ix2 a j) = v103 (ix2 a j) + ∑ r : Fin 1024, v104 (ix2 a r) * v105 (ix2 r j) := by
  have step : k0_pay27 (F := Ideal) v103 v104 v105 (ix2 a j)
      = v103 (ix2 a j) + FloatOps.matmul (F := Ideal) dot_S16x1024_S1024x1024_S16x1024_1_0_0_1_n_n none v104 v105 (constant (F := Ideal) S16x1024 .f32 0x00000000#32) (ix2 a j) := rfl
  rw [step, dot_pv_apply]
theorem pay58_eq : @k0_pay58 = @k0_pay27 := rfl

theorem tail_apply (v13 : FVec Ideal S16x8192 .f32) (v15 : FVec Ideal S16x1024 .bf16) (v16 : FVec Ideal S1024x8192 .bf16)
    (a : Fin 16) (j : Fin 8192) :
    k0_pay7 (F := Ideal) v13 v15 v16 (ix2 a j) = v13 (ix2 a j) + ∑ r : Fin 1024, v15 (ix2 a r) * v16 (ix2 r j) := by
  have step : k0_pay7 (F := Ideal) v13 v15 v16 (ix2 a j)
      = shapeCast S16x8192 v13 Facts₀.shapeCasts_S16x8192_S16x8192 (ix2 a j)
        + FloatOps.matmul (F := Ideal) dot_S16x1024_S1024x8192_S16x8192_1_0_0_1_n_n none v15 v16 (constant (F := Ideal) S16x8192 .f32 0x00000000#32) (ix2 a j) := rfl
  rw [step, shapeCast_self, dot_tail_apply]

theorem q_apply (v15 : FVec Ideal S1024x128 .f32) (v16 : FVec Ideal S64x128 .f32) (v18 : FVec Ideal S1x64 .f32)
    (r : Fin 1024) (h : Fin 64) :
    k0_pay8 (F := Ideal) v15 v16 v18 (ix2 r h) = (∑ d : Fin 128, v15 (ix2 r d) * v16 (ix2 h d)) + v18 (ix2 (0 : Fin 1) h) := by
  have step : k0_pay8 (F := Ideal) v15 v16 v18 (ix2 r h)
      = FloatOps.matmul (F := Ideal) dot_S1024x128_S64x128_S1024x64_1_1_0_0_n_n none v15 v16 (constant (F := Ideal) S1024x64 .f32 0x00000000#32) (ix2 r h)
        + broadcastTo S1024x64 (shapeCast S1x64 v18 Facts₀.shapeCasts_S1x64_S1x64) Facts₀.broadcasts_S1x64_S1024x64 (ix2 r h) := rfl
  rw [step, shapeCast_self, broadcastTo_1b_ab_apply, dot_q_apply]
theorem pay39_eq : @k0_pay39 = @k0_pay8 := rfl

theorem kt_apply (v13 : FVec Ideal S64x128 .f32) (v14 : FVec Ideal S8192x128 .f32) (v16 : FVec Ideal S64x1 .f32)
    (h : Fin 64) (s : Fin 8192) :
    k0_pay1 (F := Ideal) v13 v14 v16 (ix2 h s) = (∑ d : Fin 128, v13 (ix2 h d) * v14 (ix2 s d)) + v16 (ix2 h (0 : Fin 1)) := by
  have step : k0_pay1 (F := Ideal) v13 v14 v16
      = shapeCast S64x8192 (addf (F := Ideal) (matmul (F := Ideal) dot_S64x128_S8192x128_S64x8192_1_1_0_0_n_n none v13 v14 (constant (F := Ideal) S64x8192 .f32 0x00000000#32))
          (broadcastTo S64x8192 (shapeCast S64x1 v16 Facts₀.shapeCasts_S64x1_S64x1) Facts₀.broadcasts_S64x1_S64x8192))
          Facts₀.shapeCasts_S64x8192_S64x8192 := rfl
  rw [step, shapeCast_self, shapeCast_self, addf_apply, broadcastTo_a1_ab_apply]
  show FloatOps.matmul (F := Ideal) dot_S64x128_S8192x128_S64x8192_1_1_0_0_n_n none v13 v14 (constant (F := Ideal) S64x8192 .f32 0x00000000#32) (ix2 h s) + _ = _
  rw [dot_kt_apply]

theorem ofBits_zero_bf16 : Ideal.ofBits .bf16 0x0000#16 = 0 := by simp [Ideal.ofBits, Ideal.ieee]

theorem zero2_apply (i : S16x8192.Idx) : (k0_pay2 (F := Ideal)) i = 0 := by
  have step : (k0_pay2 (F := Ideal)) i = Ideal.ofBits .f32 0x00000000#32 := rfl
  rw [step, Ideal.ofBits_zero_f32]

theorem zero3_apply (i : S16x1024.Idx) : (k0_pay3 (F := Ideal)) i = 0 := by
  have step : (k0_pay3 (F := Ideal))
      = shapeCast S16x1024 (fun _ => Ideal.ofBits .bf16 0x0000#16) Facts₀.shapeCasts_S16x1024_S16x1024 := rfl
  rw [step, shapeCast_self]
  exact ofBits_zero_bf16

theorem zero4_apply (i : S1024x8192.Idx) : (k0_pay4 (F := Ideal)) i = 0 := by
  have step : (k0_pay4 (F := Ideal))
      = shapeCast S1024x8192 (fun _ => Ideal.ofBits .bf16 0x0000#16) Facts₀.shapeCasts_S1024x8192_S1024x8192 := rfl
  rw [step, shapeCast_self]
  exact ofBits_zero_bf16

theorem pay10_eq_addRows (v15 : FVec Ideal S1024x128 .f32) (v16 : FVec Ideal S64x128 .f32) (v18 : FVec Ideal S1x64 .f32)
    (v24 : FVec Ideal S64x1024 .bf16) :
    k0_pay10 (F := Ideal) v15 v16 v18 v24 = addRows (fun _ => Ideal.ofBits .f32 0x00000000#32) (k0_pay9 (F := Ideal) v15 v16 v18 v24) := rfl
theorem pay17_eq_addRows (v22 : FVec Ideal S1024x64 .bf16) (v29 : FVec Ideal S1024x1 .f32) (v43 : FVec Ideal S1024x1024 .f32)
    (v58 : FVec Ideal S64x1024 .bf16) :
    k0_pay17 (F := Ideal) v22 v29 v43 v58 = addRows (addRows v29 v43) (k0_pay16 (F := Ideal) v22 v58) := rfl
theorem pay24_eq_addRows (v22 : FVec Ideal S1024x64 .bf16) (v63 : FVec Ideal S1024x1 .f32) (v75 v92 : FVec Ideal S64x1024 .bf16) :
    k0_pay24 (F := Ideal) v22 v63 v75 v92 = addRows (addRows v63 (k0_pay20 (F := Ideal) v22 v75)) (k0_pay23 (F := Ideal) v22 v92) := rfl
theorem pay32_eq_addRows (v22 : FVec Ideal S1024x64 .bf16) (v97 : FVec Ideal S1024x1 .f32) (v109 v126 : FVec Ideal S64x1024 .bf16) :
    k0_pay32 (F := Ideal) v22 v97 v109 v126 = addRows (addRows v97 (k0_pay28 (F := Ideal) v22 v109)) (k0_pay31 (F := Ideal) v22 v126) := rfl
theorem pay38_eq_div (v22 : FVec Ideal S1024x64 .bf16) (v131 : FVec Ideal S1024x1 .f32) (v143 : FVec Ideal S64x1024 .bf16)
    (v163 : FVec Ideal S16x1024 .f32) :
    k0_pay38 (F := Ideal) v22 v131 v143 v163
      = divf (F := Ideal) v163 (broadcastTo S16x1024 (transpose S1x1024 [1, 0] (addRows v131 (k0_pay35 (F := Ideal) v22 v143))
          Facts₀.transposes_S1024x1_p1_0_S1x1024) Facts₀.broadcasts_S1x1024_S16x1024) := rfl

theorem z10_apply (v15 : FVec Ideal S1024x128 .f32) (v16 : FVec Ideal S64x128 .f32) (v18 : FVec Ideal S1x64 .f32)
    (v24 : FVec Ideal S64x1024 .bf16) (r : Fin 1024) (u : Fin 1) :
    k0_pay10 (F := Ideal) v15 v16 v18 v24 (ix2 r u) = rs (k0_pay9 (F := Ideal) v15 v16 v18 v24) r := by
  rw [pay10_eq_addRows, addRows_apply]
  show Ideal.ofBits .f32 0x00000000#32 + _ = _
  rw [Ideal.ofBits_zero_f32, zero_add]

theorem z17_apply (v22 : FVec Ideal S1024x64 .bf16) (v29 : FVec Ideal S1024x1 .f32) (v43 : FVec Ideal S1024x1024 .f32)
    (v58 : FVec Ideal S64x1024 .bf16) (r : Fin 1024) (u : Fin 1) :
    k0_pay17 (F := Ideal) v22 v29 v43 v58 (ix2 r u) = (v29 (ix2 r u) + rs v43 r) + rs (k0_pay16 (F := Ideal) v22 v58) r := by
  rw [pay17_eq_addRows, addRows_apply, addRows_apply]

theorem z24_apply (v22 : FVec Ideal S1024x64 .bf16) (v63 : FVec Ideal S1024x1 .f32) (v75 v92 : FVec Ideal S64x1024 .bf16)
    (r : Fin 1024) (u : Fin 1) :
    k0_pay24 (F := Ideal) v22 v63 v75 v92 (ix2 r u) = (v63 (ix2 r u) + rs (k0_pay20 (F := Ideal) v22 v75) r) + rs (k0_pay23 (F := Ideal) v22 v92) r := by
  rw [pay24_eq_addRows, addRows_apply, addRows_apply]

theorem z32_apply (v22 : FVec Ideal S1024x64 .bf16) (v97 : FVec Ideal S1024x1 .f32) (v109 v126 : FVec Ideal S64x1024 .bf16)
    (r : Fin 1024) (u : Fin 1) :
    k0_pay32 (F := Ideal) v22 v97 v109 v126 (ix2 r u) = (v97 (ix2 r u) + rs (k0_pay28 (F := Ideal) v22 v109) r) + rs (k0_pay31 (F := Ideal) v22 v126) r := by
  rw [pay32_eq_addRows, addRows_apply, addRows_apply]

theorem w_apply (v22 : FVec Ideal S1024x64 .bf16) (v131 : FVec Ideal S1024x1 .f32) (v143 : FVec Ideal S64x1024 .bf16)
    (v163 : FVec Ideal S16x1024 .f32) (a : Fin 16) (r : Fin 1024) :
    k0_pay38 (F := Ideal) v22 v131 v143 v163 (ix2 a r)
      = Ideal.div (v163 (ix2 a r)) (v131 (ix2 r (0 : Fin 1)) + rs (k0_pay35 (F := Ideal) v22 v143) r) := by
  rw [pay38_eq_div, divf_apply, broadcastTo_1b_ab_apply, transpose_ix2_apply, addRows_apply]
theorem pay41_eq : @k0_pay41 = @k0_pay10 := rfl
theorem pay48_eq : @k0_pay48 = @k0_pay17 := rfl
theorem pay55_eq : @k0_pay55 = @k0_pay24 := rfl
theorem pay63_eq : @k0_pay63 = @k0_pay32 := rfl
theorem pay69_eq : @k0_pay69 = @k0_pay38 := rfl

end Cert.KernelIdeal.Pay

end
-- ==== Proof.Fold.lean ====
import proofs.«137864_g5935644803188_cont_9to1c4b_610_18_alg».proof.Proof.Spec
import Mathlib.Algebra.BigOperators.Fin
import Mathlib.Logic.Equiv.Fin.Basic
import Mathlib.Data.Fintype.BigOperators

noncomputable section

namespace Cert.Spec

open Idealize.ShloMosaic

variable (b : Fin 16 → Fin 8192 → EReal) (e : Fin 8192 → Fin 128 → EReal)
  (Wk : Fin 64 → Fin 128 → EReal) (bk : Fin 64 → EReal) (Wq : Fin 64 → Fin 128 → EReal) (bq : Fin 64 → EReal)

def row (t : Fin 8) (r : Fin 1024) : Fin 8192 := ⟨1024 * t.val + r.val, by have := t.isLt; have := r.isLt; omega⟩

@[simp] theorem row_val (t : Fin 8) (r : Fin 1024) : (row t r).val = 1024 * t.val + r.val := rfl

/-- Used to regroup a sum over the 8192 states into the eight slabs of 1024 rows in which the kernel visits them. -/
theorem sum_slabs {M : Type} [AddCommMonoid M] (f : Fin 8192 → M) :
    ∑ s : Fin 8192, f s = ∑ t : Fin 8, ∑ r : Fin 1024, f (row t r) := by
  have h : ∑ x : Fin 8 × Fin 1024, f (row x.1 x.2) = ∑ s : Fin 8192, f s :=
    Fintype.sum_equiv (finProdFinEquiv : Fin 8 × Fin 1024 ≃ Fin (8 * 1024)) _ _ (fun x => by
      refine congrArg f (Fin.ext ?_)
      simp only [row_val, finProdFinEquiv_apply_val]
      omega)
  rw [← h, Fintype.sum_prod_type]

def contrib (t : Fin 8) (a : Fin 16) (j : Fin 8192) : EReal :=
  ∑ r : Fin 1024, weight b e Wk bk Wq bq a (row t r) * expo e Wk bk Wq bq (row t r) j

theorem out_eq_sum_contrib (a : Fin 16) (j : Fin 8192) :
    out b e Wk bk Wq bq a j = ∑ t : Fin 8, contrib b e Wk bk Wq bq t a j := by
  unfold out contrib
  exact sum_slabs (fun s => weight b e Wk bk Wq bq a s * expo e Wk bk Wq bq s j)

def acc (n : ℕ) (a : Fin 16) (j : Fin 8192) : EReal :=
  ∑ t : Fin 8, if t.val < n then contrib b e Wk bk Wq bq t a j else 0

theorem acc_zero (a : Fin 16) (j : Fin 8192) : acc b e Wk bk Wq bq 0 a j = 0 := by
  unfold acc; simp

theorem acc_succ (t : Fin 8) (a : Fin 16) (j : Fin 8192) :
    acc b e Wk bk Wq bq (t.val + 1) a j = acc b e Wk bk Wq bq t.val a j + contrib b e Wk bk Wq bq t a j := by
  unfold acc
  have hsplit : ∀ u : Fin 8, (if u.val < t.val + 1 then contrib b e Wk bk Wq bq u a j else 0)
      = (if u.val < t.val then contrib b e Wk bk Wq bq u a j else 0) + (if u = t then contrib b e Wk bk Wq bq u a j else 0) := by
    intro u
    by_cases h1 : u.val < t.val
    · have h2 : u ≠ t := fun h => by rw [h] at h1; exact lt_irrefl _ h1
      rw [if_pos (Nat.lt_succ_of_lt h1), if_pos h1, if_neg h2, add_zero]
    · by_cases h2 : u = t
      · subst h2; rw [if_pos (Nat.lt_succ_self _), if_neg h1, if_pos rfl, zero_add]
      · have h3 : ¬ u.val < t.val + 1 := fun h => h2 (Fin.ext (by omega))
        rw [if_neg h3, if_neg h1, if_neg h2, add_zero]
  rw [Finset.sum_congr rfl (fun u _ => hsplit u), Finset.sum_add_distrib, Finset.sum_ite_eq' Finset.univ t]
  simp

theorem acc_eight (a : Fin 16) (j : Fin 8192) : acc b e Wk bk Wq bq 8 a j = out b e Wk bk Wq bq a j := by
  rw [out_eq_sum_contrib]; unfold acc
  exact Finset.sum_congr rfl (fun t _ => if_pos t.isLt)

theorem rowsum_chunks (s : Fin 8192) :
    rowsum e Wk bk Wq bq s = ∑ t : Fin 8, ∑ r : Fin 1024, expo e Wk bk Wq bq s (row t r) := by
  unfold rowsum; exact sum_slabs (fun j => expo e Wk bk Wq bq s j)

end Cert.Spec

end
-- ==== Proof.KI.CasesDefs.lean ====
import proofs.«137864_g5935644803188_cont_9to1c4b_610_18_alg».proof.Proof.KI.Conds
import proofs.«137864_g5935644803188_cont_9to1c4b_610_18_alg».proof.Proof.Fold
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Body
open Idealize.ShloMosaic Idealize.ShloMosaic.TcCoe Idealize.ShloMosaic.ValueIdx
open Idealize.SL Idealize.SL.Sem

def slab (i : grid0.Coords) : Fin 8 := ⟨(i 0).val, (i 0).isLt⟩

/-- A slab's queries, its exponentials over given keys and its weights, as plain sums against which both the kernel's stores and the specification are matched. -/
def qv (x1 : Vec Ideal S8192x128 .f32) (x2 : Vec Ideal S64x128 .f32) (x3 : Vec Ideal S1x64 .f32) (t : Fin 8) (r : Fin 1024) (h : Fin 64) : EReal :=
  (∑ d : Fin 128, x1 (ix2 (Cert.Spec.row t r) d) * x2 (ix2 h d)) + x3 (ix2 0 h)

def pv (x1 : Vec Ideal S8192x128 .f32) (x2 : Vec Ideal S64x128 .f32) (x3 : Vec Ideal S1x64 .f32) (xk : Vec Ideal S64x8192 .bf16) (t : Fin 8) (r : Fin 1024) (j : Fin 8192) : EReal :=
  Ideal.exp (∑ h : Fin 64, qv x1 x2 x3 t r h * xk (ix2 h j))

def wv (x0 : Vec Ideal S16x8192 .f32) (x1 : Vec Ideal S8192x128 .f32) (x2 : Vec Ideal S64x128 .f32) (x3 : Vec Ideal S1x64 .f32) (xk : Vec Ideal S64x8192 .bf16) (t : Fin 8) (a : Fin 16) (r : Fin 1024) : EReal :=
  Ideal.div (x0 (ix2 a (Cert.Spec.row t r))) (∑ j : Fin 8192, pv x1 x2 x3 xk t r j)

theorem hz2 : (![0, 0] : Fin 2 → Nat) = fun _ => 0 := funext fun a => by fin_cases a <;> rfl

theorem ld_cols {Val : EltTy → Type} {e : EltTy} {n W w : ℕ} (X : (⟨2, ![n, W]⟩ : Shape).Idx → Val e) (k : ℕ)
    (inb : ∀ a, (![0, k] : Fin 2 → ℕ) a + (![n, w] : Fin 2 → ℕ) a ≤ (⟨2, ![n, W]⟩ : Shape).size a)
    (p : Fin n) (q : Fin w) (hk : k + q.val < W) :
    View.ld (Val := Val) (e' := e) X (Rect.unit (s := ⟨2, ![n, W]⟩) ![0, k] ![n, w] inb) (ix2 p q) = X (ix2 p ⟨k + q.val, hk⟩) := by
  show X ((Rect.unit (s := ⟨2, ![n, W]⟩) ![0, k] ![n, w] inb).idx (ix2 p q)) = _
  refine congrArg X (funext fun a => ?_)
  match a with
  | ⟨0, _⟩ => exact Fin.ext (by show 0 + 1 * p.val = p.val; omega)
  | ⟨1, _⟩ => exact Fin.ext (by show k + 1 * q.val = k + q.val; omega)

theorem ld_rows {Val : EltTy → Type} {e : EltTy} {H n h : ℕ} (X : (⟨2, ![H, n]⟩ : Shape).Idx → Val e) (off : Fin 2 → ℕ) (k : ℕ) (hoff : off = ![k, 0])
    (inb : ∀ a, off a + (![h, n] : Fin 2 → ℕ) a ≤ (⟨2, ![H, n]⟩ : Shape).size a)
    (p : Fin h) (q : Fin n) (hk : k + p.val < H) :
    View.ld (Val := Val) (e' := e) X (Rect.unit (s := ⟨2, ![H, n]⟩) off ![h, n] inb) (ix2 p q) = X (ix2 ⟨k + p.val, hk⟩ q) := by
  subst hoff
  show X ((Rect.unit (s := ⟨2, ![H, n]⟩) ![k, 0] ![h, n] inb).idx (ix2 p q)) = _
  refine congrArg X (funext fun a => ?_)
  match a with
  | ⟨0, _⟩ => exact Fin.ext (by show k + 1 * p.val = k + p.val; omega)
  | ⟨1, _⟩ => exact Fin.ext (by show 0 + 1 * q.val = q.val; omega)

theorem emb_cols {n W w : ℕ} (k : ℕ)
    (inb : ∀ a, (![0, k] : Fin 2 → ℕ) a + (![n, w] : Fin 2 → ℕ) a ≤ (⟨2, ![n, W]⟩ : Shape).size a)
    (p : Fin n) (q : Fin w) (hk : k + q.val < W) :
    (Rect.unit (s := ⟨2, ![n, W]⟩) ![0, k] ![n, w] inb).emb (ix2 p q) = ix2 p ⟨k + q.val, hk⟩ := by
  funext a
  match a with
  | ⟨0, _⟩ => exact Fin.ext (by show 0 + 1 * p.val = p.val; omega)
  | ⟨1, _⟩ => exact Fin.ext (by show k + 1 * q.val = k + q.val; omega)

theorem ld_cols' {Val : EltTy → Type} {e : EltTy} {n W w : ℕ} (X : (⟨2, ![n, W]⟩ : Shape).Idx → Val e) (off : Fin 2 → ℕ) (k : ℕ) (hoff : off = ![0, k])
    (inb : ∀ a, off a + (![n, w] : Fin 2 → ℕ) a ≤ (⟨2, ![n, W]⟩ : Shape).size a)
    (p : Fin n) (q : Fin w) (hk : k + q.val < W) :
    View.ld (Val := Val) (e' := e) X (Rect.unit (s := ⟨2, ![n, W]⟩) off ![n, w] inb) (ix2 p q) = X (ix2 p ⟨k + q.val, hk⟩) := by
  subst hoff
  exact ld_cols X k inb p q hk

theorem off1_eq : ∀ i : grid0.Coords, k0_off1 i = ![1024 * (i 0).val, 0] := by decide +kernel
theorem off2_eq : ∀ i : grid0.Coords, k0_off2 i = ![0, 1024 * (i 0).val] := by decide +kernel
theorem off3_eq : ∀ i : grid0.Coords, k0_off3 i = ![1024 * (i 0).val, 0] := by decide +kernel
theorem off4_eq : ∀ i : grid0.Coords, k0_off4 i = ![0, 1024 * (i 0).val] := by decide +kernel

theorem slab_val (i : grid0.Coords) : (slab i).val = (i 0).val := rfl

end Cert.KernelIdeal.Val

end
-- ==== Proof.KI.CasesA.lean ====
import proofs.«137864_g5935644803188_cont_9to1c4b_610_18_alg».proof.Proof.KI.Point
import proofs.«137864_g5935644803188_cont_9to1c4b_610_18_alg».proof.Proof.KI.Pay
import proofs.«137864_g5935644803188_cont_9to1c4b_610_18_alg».proof.Proof.KI.CasesDefs

set_option maxRecDepth 16384

noncomputable section

namespace Cert.KernelIdeal.Val

open Cert.KernelIdeal Cert.KernelIdeal.Gen Cert.KernelIdeal.Body
open Idealize.ShloMosaic Idealize.ShloMosaic.TcCoe Idealize.ShloMosaic.Tactic Idealize.ShloMosaic.ValueIdx
open Idealize.SL Idealize.SL.Sem
open Cert.KernelIdeal.Pay

theorem rd_cov_cols {sg : RefSig} {κ : Kind} {sp : Space} {e : EltTy} {n W w : ℕ} (v : View sg κ sp (⟨2, ![n, W]⟩ : Shape) e)
    (L : List (View.Piece (Elt Ideal) (⟨2, ![n, W]⟩ : Shape) e)) (k : ℕ)
    (inb : ∀ a, (![0, k] : Fin 2 → ℕ) a + (![n, w] : Fin 2 → ℕ) a ≤ (⟨2, ![n, W]⟩ : Shape).size a)
    (p : Fin n) (q : Fin w) (hk : k + q.val < W) :
    v.readCov L (Rect.unit (s := ⟨2, ![n, W]⟩) ![0, k] ![n, w] inb).toLoadRect (ix2 p q) = View.canon L (ix2 p ⟨k + q.val, hk⟩) := by
  rw [View.readCov_eq_canon']
  exact ld_cols (View.canon L) k inb p q hk

theorem miss_cols {n W w : ℕ} (k : ℕ) (off size : Fin 2 → ℕ) (hoff : off = ![0, k]) (hsize : size = ![n, w])
    (inb : ∀ a, off a + size a ≤ (⟨2, ![n, W]⟩ : Shape).size a) (p : Fin n) (col : Fin W)
    (h : col.val < k ∨ k + w ≤ col.val) : ix2 p col ∉ (Rect.unit (s := ⟨2, ![n, W]⟩) off size inb).set := by
  subst hoff hsize
  rw [Rect.mem_set_unit]
  intro hm
  have h1 : k ≤ col.val ∧ col.val < k + w := hm 1
  omega

theorem canon_cons_miss {S : Shape} {e : EltTy} (p : View.Piece (Elt Ideal) S e) (L : List (View.Piece (Elt Ideal) S e)) (y : S.Idx)
    (z : Elt Ideal e) (h : y ∉ p.1.set) (hL : View.canon L y = z) : View.canon (p :: L) y = z :=
  (View.canon_cons_of_not_mem p L h).trans hL

theorem canon_cons_miss_cols {e : EltTy} {n W w : ℕ} (k : ℕ)
    (inb : ∀ a, (![0, k] : Fin 2 → ℕ) a + (![n, w] : Fin 2 → ℕ) a ≤ (⟨2, ![n, W]⟩ : Shape).size a)
    (pay : (Rect.unit (s := ⟨2, ![n, W]⟩) ![0, k] ![n, w] inb).shape.Idx → Elt Ideal e)
    (L : List (View.Piece (Elt Ideal) (⟨2, ![n, W]⟩ : Shape) e)) (p : Fin n) (col : Fin W) (z : Elt Ideal e)
    (h : col.val < k ∨ k + w ≤ col.val) (hL : View.canon L (ix2 p col) = z) :
    View.canon ((⟨Rect.unit (s := ⟨2, ![n, W]⟩) ![0, k] ![n, w] inb, pay⟩ : View.Piece (Elt Ideal) (⟨2, ![n, W]⟩ : Shape) e) :: L) (ix2 p col) = z :=
by
  refine (View.canon_cons_of_not_mem (⟨Rect.unit (s := ⟨2, ![n, W]⟩) ![0, k] ![n, w] inb, pay⟩ : View.Piece (Elt Ideal) (⟨2, ![n, W]⟩ : Shape) e) L ?_).trans hL
  exact miss_cols k ![0, k] ![n, w] rfl rfl inb p col h

theorem acc_zero_of (v34 : FVec Ideal S16x1024 .f32) (v36 : FVec Ideal S16x1024 .bf16) (v37 : FVec Ideal S1024x1024 .bf16)
    (h34 : ∀ y, v34 y = 0) (h36 : ∀ y, v36 y = 0) (x : S16x1024.Idx) : k0_pay12 (F := Ideal) v34 v36 v37 x = 0 := by
  obtain ⟨a', q, rfl⟩ : ∃ (a' : Fin 16) (q : Fin 1024), x = ix2 a' q := ⟨x 0, x 1, eq_ix2 x⟩
  rw [acc_apply, h34]
  simp only [h36, zero_mul, Finset.sum_const_zero, add_zero]

theorem rd_wb_zero {sg : RefSig} {κ : Kind} {sp : Space} (v : View sg κ sp S16x1024 .bf16) (off : Fin 2 → ℕ) (hoff : off = fun _ => 0)
    (inb : ∀ a, off a + S16x1024.size a ≤ S16x1024.size a) (y : S16x1024.Idx) :
    v.readCov [(⟨Rect.unit off S16x1024.size inb, k0_pay3 (F := Ideal)⟩ : View.Piece (Elt Ideal) S16x1024 .bf16)]
      (Rect.unit off S16x1024.size inb).toLoadRect y = 0 := by
  rw [View.readCov_unit_zero v hoff inb]
  exact zero3_apply y

theorem acc27_zero_of (v103 : FVec Ideal S16x1024 .f32) (v104 : FVec Ideal S16x1024 .bf16) (v105 : FVec Ideal S1024x1024 .bf16)
    (h34 : ∀ y, v103 y = 0) (h36 : ∀ y, v104 y = 0) (x : S16x1024.Idx) : k0_pay27 (F := Ideal) v103 v104 v105 x = 0 := by
  obtain ⟨a', q, rfl⟩ : ∃ (a' : Fin 16) (q : Fin 1024), x = ix2 a' q := ⟨x 0, x 1, eq_ix2 x⟩
  rw [acc27_apply, h34]
  simp only [h36, zero_mul, Finset.sum_const_zero, add_zero]

variable (u : Args Ideal)

set_option maxHeartbeats 4000000 in
/-- At the first point the pair of buffers consumed was just zeroed, so every chunk's product vanishes and the output is zero. -/
theorem A_out (hu : CA u.i) (a : Fin 16) (j : Fin 8192) :
    View.canon (rA u hu).1 (ix2 a j) = 0 := by
  have hcov := coverA_out u hu (ix2 a j)
  refine View.canon_apply_of_pieces (fun _ => (0 : EReal)) _ ?_ (ix2 a j) hcov
  unfold rA runA; dsimp only; sl_unfold_words
  intro p hp
  simp only [List.mem_cons, List.not_mem_nil, or_false] at hp
  rcases hp with rfl | rfl | rfl | rfl | rfl | rfl | rfl | rfl | rfl
  · intro x
    rw [pay37_eq]
    exact acc_zero_of _ _ _ (fun y => by
      obtain ⟨a', q, rfl⟩ : ∃ (a' : Fin 16) (q : Fin 1024), y = ix2 a' q := ⟨y 0, y 1, eq_ix2 y⟩
      have hq : 7168 + q.val < 8192 := by have := q.isLt; omega
      refine (rd_cov_cols _ _ 7168 _ a' q hq).trans ?_
      refine canon_cons_miss_cols 6144 _ _ _ a' _ _ (Or.inr (by show 6144 + 1024 ≤ 7168 + q.val; omega)) ?_
      refine canon_cons_miss_cols 5120 _ _ _ a' _ _ (Or.inr (by show 5120 + 1024 ≤ 7168 + q.val; omega)) ?_
      refine canon_cons_miss_cols 4096 _ _ _ a' _ _ (Or.inr (by show 4096 + 1024 ≤ 7168 + q.val; omega)) ?_
      refine canon_cons_miss_cols 3072 _ _ _ a' _ _ (Or.inr (by show 3072 + 1024 ≤ 7168 + q.val; omega)) ?_
      refine canon_cons_miss_cols 2048 _ _ _ a' _ _ (Or.inr (by show 2048 + 1024 ≤ 7168 + q.val; omega)) ?_
      refine canon_cons_miss_cols 1024 _ _ _ a' _ _ (Or.inr (by show 1024 + 1024 ≤ 7168 + q.val; omega)) ?_
      refine canon_cons_miss_cols 0 _ _ _ a' _ _ (Or.inr (by show 0 + 1024 ≤ 7168 + q.val; omega)) ?_
      exact (congrFun (View.canon_unit_zero (S := S16x8192) hz2 _ _) _).trans (zero2_apply _))
      (fun y => rd_wb_zero _ _ hz2 _ y) x
  · intro x
    rw [pay34_eq]
    exact acc_zero_of _ _ _ (fun y => by
      obtain ⟨a', q, rfl⟩ : ∃ (a' : Fin 16) (q : Fin 1024), y = ix2 a' q := ⟨y 0, y 1, eq_ix2 y⟩
      have hq : 6144 + q.val < 8192 := by have := q.isLt; omega
      refine (rd_cov_cols _ _ 6144 _ a' q hq).trans ?_
      refine canon_cons_miss_cols 5120 _ _ _ a' _ _ (Or.inr (by show 5120 + 1024 ≤ 6144 + q.val; omega)) ?_
      refine canon_cons_miss_cols 4096 _ _ _ a' _ _ (Or.inr (by show 4096 + 1024 ≤ 6144 + q.val; omega)) ?_
      refine canon_cons_miss_cols 3072 _ _ _ a' _ _ (Or.inr (by show 3072 + 1024 ≤ 6144 + q.val; omega)) ?_
      refine canon_cons_miss_cols 2048 _ _ _ a' _ _ (Or.inr (by show 2048 + 1024 ≤ 6144 + q.val; omega)) ?_
      refine canon_cons_miss_cols 1024 _ _ _ a' _ _ (Or.inr (by show 1024 + 1024 ≤ 6144 + q.val; omega)) ?_
      refine canon_cons_miss_cols 0 _ _ _ a' _ _ (Or.inr (by show 0 + 1024 ≤ 6144 + q.val; omega)) ?_
      exact (congrFun (View.canon_unit_zero (S := S16x8192) hz2 _ _) _).trans (zero2_apply _))
      (fun y => rd_wb_zero _ _ hz2 _ y) x
  · intro x
    rw [pay30_eq]
    exact acc_zero_of _ _ _ (fun y => by
      obtain ⟨a', q, rfl⟩ : ∃ (a' : Fin 16) (q : Fin 1024), y = ix2 a' q := ⟨y 0, y 1, eq_ix2 y⟩
      have hq : 5120 + q.val < 8192 := by have := q.isLt; omega
      refine (rd_cov_cols _ _ 5120 _ a' q hq).trans ?_
      refine canon_cons_miss_cols 4096 _ _ _ a' _ _ (Or.inr (by show 4096 + 1024 ≤ 5120 + q.val; omega)) ?_
      refine canon_cons_miss_cols 3072 _ _ _ a' _ _ (Or.inr (by show 3072 + 1024 ≤ 5120 + q.val; omega)) ?_
      refine canon_cons_miss_cols 2048 _ _ _ a' _ _ (Or.inr (by show 2048 + 1024 ≤ 5120 + q.val; omega)) ?_
      refine canon_cons_miss_cols 1024 _ _ _ a' _ _ (Or.inr (by show 1024 + 1024 ≤ 5120 + q.val; omega)) ?_
      refine canon_cons_miss_cols 0 _ _ _ a' _ _ (Or.inr (by show 0 + 1024 ≤ 5120 + q.val; omega)) ?_
      exact (congrFun (View.canon_unit_zero (S := S16x8192) hz2 _ _) _).trans (zero2_apply _))
      (fun y => rd_wb_zero _ _ hz2 _ y) x
  · intro x
    rw [pay26_id]
    exact acc27_zero_of _ _ _ (fun y => by
      obtain ⟨a', q, rfl⟩ : ∃ (a' : Fin 16) (q : Fin 1024), y = ix2 a' q := ⟨y 0, y 1, eq_ix2 y⟩
      have hq : 4096 + q.val < 8192 := by have := q.isLt; omega
      refine (rd_cov_cols _ _ 4096 _ a' q hq).trans ?_
      refine canon_cons_miss_cols 3072 _ _ _ a' _ _ (Or.inr (by show 3072 + 1024 ≤ 4096 + q.val; omega)) ?_
      refine canon_cons_miss_cols 2048 _ _ _ a' _ _ (Or.inr (by show 2048 + 1024 ≤ 4096 + q.val; omega)) ?_
      refine canon_cons_miss_cols 1024 _ _ _ a' _ _ (Or.inr (by show 1024 + 1024 ≤ 4096 + q.val; omega)) ?_
      refine canon_cons_miss_cols 0 _ _ _ a' _ _ (Or.inr (by show 0 + 1024 ≤ 4096 + q.val; omega)) ?_
      exact (congrFun (View.canon_unit_zero (S := S16x8192) hz2 _ _) _).trans (zero2_apply _))
      (fun y => rd_wb_zero _ _ hz2 _ y) x
  · intro x
    rw [pay22_eq]
    exact acc_zero_of _ _ _ (fun y => by
      obtain ⟨a', q, rfl⟩ : ∃ (a' : Fin 16) (q : Fin 1024), y = ix2 a' q := ⟨y 0, y 1, eq_ix2 y⟩
      have hq : 3072 + q.val < 8192 := by have := q.isLt; omega
      refine (rd_cov_cols _ _ 3072 _ a' q hq).trans ?_
      refine canon_cons_miss_cols 2048 _ _ _ a' _ _ (Or.inr (by show 2048 + 1024 ≤ 3072 + q.val; omega)) ?_
      refine canon_cons_miss_cols 1024 _ _ _ a' _ _ (Or.inr (by show 1024 + 1024 ≤ 3072 + q.val; omega)) ?_
      refine canon_cons_miss_cols 0 _ _ _ a' _ _ (Or.inr (by show 0 + 1024 ≤ 3072 + q.val; omega)) ?_
      exact (congrFun (View.canon_unit_zero (S := S16x8192) hz2 _ _) _).trans (zero2_apply _))
      (fun y => rd_wb_zero _ _ hz2 _ y) x
  · intro x
    rw [pay19_eq]
    exact acc_zero_of _ _ _ (fun y => by
      obtain ⟨a', q, rfl⟩ : ∃ (a' : Fin 16) (q : Fin 1024), y = ix2 a' q := ⟨y 0, y 1, eq_ix2 y⟩
      have hq : 2048 + q.val < 8192 := by have := q.isLt; omega
      refine (rd_cov_cols _ _ 2048 _ a' q hq).trans ?_
      refine canon_cons_miss_cols 1024 _ _ _ a' _ _ (Or.inr (by show 1024 + 1024 ≤ 2048 + q.val; omega)) ?_
      refine canon_cons_miss_cols 0 _ _ _ a' _ _ (Or.inr (by show 0 + 1024 ≤ 2048 + q.val; omega)) ?_
      exact (congrFun (View.canon_unit_zero (S := S16x8192) hz2 _ _) _).trans (zero2_apply _))
      (fun y => rd_wb_zero _ _ hz2 _ y) x
  · intro x
    rw [pay15_eq]
    exact acc_zero_of _ _ _ (fun y => by
      obtain ⟨a', q, rfl⟩ : ∃ (a' : Fin 16) (q : Fin 1024), y = ix2 a' q := ⟨y 0, y 1, eq_ix2 y⟩
      have hq : 1024 + q.val < 8192 := by have := q.isLt; omega
      refine (rd_cov_cols _ _ 1024 _ a' q hq).trans ?_
      refine canon_cons_miss_cols 0 _ _ _ a' _ _ (Or.inr (by show 0 + 1024 ≤ 1024 + q.val; omega)) ?_
      exact (congrFun (View.canon_unit_zero (S := S16x8192) hz2 _ _) _).trans (zero2_apply _))
      (fun y => rd_wb_zero _ _ hz2 _ y) x
  · intro x
    exact acc_zero_of _ _ _ (fun y => by
      obtain ⟨a', q, rfl⟩ : ∃ (a' : Fin 16) (q : Fin 1024), y = ix2 a' q := ⟨y 0, y 1, eq_ix2 y⟩
      have hq : 0 + q.val < 8192 := by have := q.isLt; omega
      refine (rd_cov_cols _ _ 0 _ a' q hq).trans ?_
      exact (congrFun (View.canon_unit_zero (S := S16x8192) hz2 _ _) _).trans (zero2_apply _))
      (fun y => rd_wb_zero _ _ hz2 _ y) x
  · intro x; exact zero2_apply x

end Cert.KernelIdeal.Val

end
-- ==== Proof.KI.CasesC.lean ====
import proofs.«137864_g5935644803188_cont_9to1c4b_610_18_alg».proof.Proof.KI.Point
import proofs.«137864_g5935644803188_cont_9to1c4b_610_18_alg».proof.Proof.KI.Pay
import proofs.«137864_g5935644803188_cont_9to1c4b_610_18_alg».proof.Proof.KI.CasesDefs

set_option maxRecDepth 16384

noncomputable section

namespace Cert.KernelIdeal.Val

open Cert.KernelIdeal Cert.KernelIdeal.Gen Cert.KernelIdeal.Body
open Idealize.ShloMosaic Idealize.ShloMosaic.TcCoe Idealize.ShloMosaic.Tactic Idealize.ShloMosaic.ValueIdx
open Idealize.SL Idealize.SL.Sem
open Cert.KernelIdeal.Pay

def outG (xo : Vec Ideal S16x8192 .f32) (xw : Vec Ideal S16x1024 .bf16) (xp : Vec Ideal S1024x8192 .bf16) (y : S16x8192.Idx) : EReal :=
  xo y + ∑ r : Fin 1024, xw (ix2 ⟨(y 0).val, idx2_lt0 y⟩ r) * xp (ix2 r ⟨(y 1).val, idx2_lt1 y⟩)

theorem outG_ix2 (xo : Vec Ideal S16x8192 .f32) (xw : Vec Ideal S16x1024 .bf16) (xp : Vec Ideal S1024x8192 .bf16) (a : Fin 16) (j : Fin 8192) :
    outG xo xw xp (ix2 a j) = xo (ix2 a j) + ∑ r : Fin 1024, xw (ix2 a r) * xp (ix2 r j) := rfl

theorem out_piece (xo : Vec Ideal S16x8192 .f32) (xw : Vec Ideal S16x1024 .bf16) (xp : Vec Ideal S1024x8192 .bf16) (k : ℕ) (hk : k + 1024 ≤ 8192)
    (inbo : ∀ a, (![0, k] : Fin 2 → ℕ) a + (![16, 1024] : Fin 2 → ℕ) a ≤ S16x8192.size a)
    (inbw : ∀ a, (![0, 0] : Fin 2 → ℕ) a + S16x1024.size a ≤ S16x1024.size a)
    (inbp : ∀ a, (![0, k] : Fin 2 → ℕ) a + (![1024, 1024] : Fin 2 → ℕ) a ≤ S1024x8192.size a)
    (a' : Fin 16) (q : Fin 1024) :
    k0_pay12 (F := Ideal) (View.ld xo (Rect.unit ![0, k] ![16, 1024] inbo)) (View.ld xw (Rect.unit ![0, 0] S16x1024.size inbw))
        (View.ld xp (Rect.unit ![0, k] ![1024, 1024] inbp)) (ix2 a' q)
      = outG xo xw xp ((Rect.unit (s := S16x8192) ![0, k] ![16, 1024] inbo).emb (ix2 a' q)) := by
  have hq : k + q.val < 8192 := by have := q.isLt; omega
  rw [emb_cols k inbo a' q hq, outG_ix2]
  refine (acc_apply _ _ _ a' q).trans ?_
  rw [ld_cols xo k inbo a' q hq, View.ld_unit_zero (S := S16x1024) hz2]
  refine congrArg _ (Finset.sum_congr rfl fun r _ => ?_)
  rw [ld_cols xp k inbp r q hq]

theorem out_piece' (xo : Vec Ideal S16x8192 .f32) (xw : Vec Ideal S16x1024 .bf16) (xp : Vec Ideal S1024x8192 .bf16) (k : ℕ) (hk : k + 1024 ≤ 8192)
    (inbo : ∀ a, (![0, k] : Fin 2 → ℕ) a + (![16, 1024] : Fin 2 → ℕ) a ≤ S16x8192.size a)
    (inbw : ∀ a, (![0, 0] : Fin 2 → ℕ) a + S16x1024.size a ≤ S16x1024.size a)
    (inbp : ∀ a, (![0, k] : Fin 2 → ℕ) a + (![1024, 1024] : Fin 2 → ℕ) a ≤ S1024x8192.size a)
    (a' : Fin 16) (q : Fin 1024) :
    k0_pay27 (F := Ideal) (k0_pay26 (F := Ideal) (View.ld xo (Rect.unit ![0, k] ![16, 1024] inbo))) (View.ld xw (Rect.unit ![0, 0] S16x1024.size inbw))
        (View.ld xp (Rect.unit ![0, k] ![1024, 1024] inbp)) (ix2 a' q)
      = outG xo xw xp ((Rect.unit (s := S16x8192) ![0, k] ![16, 1024] inbo).emb (ix2 a' q)) := by
  have hq : k + q.val < 8192 := by have := q.isLt; omega
  rw [emb_cols k inbo a' q hq, outG_ix2, pay26_id]
  refine (acc27_apply _ _ _ a' q).trans ?_
  rw [ld_cols xo k inbo a' q hq, View.ld_unit_zero (S := S16x1024) hz2]
  refine congrArg _ (Finset.sum_congr rfl fun r _ => ?_)
  rw [ld_cols xp k inbp r q hq]

theorem q_ld (x1 : Vec Ideal S8192x128 .f32) (x2 : Vec Ideal S64x128 .f32) (x3 : Vec Ideal S1x64 .f32) (t : Fin 8)
    (off : Fin 2 → ℕ) (hoff : off = ![1024 * t.val, 0])
    (inb1 : ∀ a, off a + S1024x128.size a ≤ S8192x128.size a)
    (inb2 : ∀ a, (![0, 0] : Fin 2 → ℕ) a + S64x128.size a ≤ S64x128.size a)
    (inb3 : ∀ a, (![0, 0] : Fin 2 → ℕ) a + S1x64.size a ≤ S1x64.size a) (r : Fin 1024) (h : Fin 64) :
    k0_pay8 (F := Ideal) (View.ld x1 (Rect.unit off S1024x128.size inb1)) (View.ld x2 (Rect.unit ![0, 0] S64x128.size inb2))
        (View.ld x3 (Rect.unit ![0, 0] S1x64.size inb3)) (ix2 r h) = qv x1 x2 x3 t r h := by
  refine (q_apply _ _ _ r h).trans ?_
  unfold qv
  rw [View.ld_unit_zero (S := S64x128) hz2, View.ld_unit_zero (S := S1x64) hz2]
  refine congrArg (· + x3 (ix2 0 h)) (Finset.sum_congr rfl fun d _ => ?_)
  rw [ld_rows x1 off (1024 * t.val) hoff inb1 r d (by have := t.isLt; have := r.isLt; omega)]
  rfl

theorem e_chunk (x1 : Vec Ideal S8192x128 .f32) (x2 : Vec Ideal S64x128 .f32) (x3 : Vec Ideal S1x64 .f32) (xk : Vec Ideal S64x8192 .bf16) (t : Fin 8)
    (off : Fin 2 → ℕ) (hoff : off = ![1024 * t.val, 0]) (k : ℕ)
    (inb1 : ∀ a, off a + S1024x128.size a ≤ S8192x128.size a)
    (inb2 : ∀ a, (![0, 0] : Fin 2 → ℕ) a + S64x128.size a ≤ S64x128.size a)
    (inb3 : ∀ a, (![0, 0] : Fin 2 → ℕ) a + S1x64.size a ≤ S1x64.size a)
    (inbk : ∀ a, (![0, k] : Fin 2 → ℕ) a + (![64, 1024] : Fin 2 → ℕ) a ≤ S64x8192.size a)
    (r q : Fin 1024) (hq : k + q.val < 8192) :
    k0_pay16 (F := Ideal) (k0_pay8 (F := Ideal) (View.ld x1 (Rect.unit off S1024x128.size inb1)) (View.ld x2 (Rect.unit ![0, 0] S64x128.size inb2))
        (View.ld x3 (Rect.unit ![0, 0] S1x64.size inb3))) (View.ld xk (Rect.unit ![0, k] ![64, 1024] inbk)) (ix2 r q)
      = pv x1 x2 x3 xk t r ⟨k + q.val, hq⟩ := by
  refine (p_apply _ _ r q).trans ?_
  unfold pv
  refine congrArg Ideal.exp (Finset.sum_congr rfl fun h _ => ?_)
  rw [q_ld x1 x2 x3 t off hoff inb1 inb2 inb3 r h, ld_cols xk k inbk h q hq]

def paG (x1 : Vec Ideal S8192x128 .f32) (x2 : Vec Ideal S64x128 .f32) (x3 : Vec Ideal S1x64 .f32) (xk : Vec Ideal S64x8192 .bf16) (t : Fin 8) (y : S1024x8192.Idx) : EReal :=
  pv x1 x2 x3 xk t ⟨(y 0).val, idx2_lt0 y⟩ ⟨(y 1).val, idx2_lt1 y⟩

theorem paG_ix2 (x1 : Vec Ideal S8192x128 .f32) (x2 : Vec Ideal S64x128 .f32) (x3 : Vec Ideal S1x64 .f32) (xk : Vec Ideal S64x8192 .bf16) (t : Fin 8) (r : Fin 1024) (j : Fin 8192) :
    paG x1 x2 x3 xk t (ix2 r j) = pv x1 x2 x3 xk t r j := rfl

theorem pa_piece (x1 : Vec Ideal S8192x128 .f32) (x2 : Vec Ideal S64x128 .f32) (x3 : Vec Ideal S1x64 .f32) (xk : Vec Ideal S64x8192 .bf16) (t : Fin 8)
    (off : Fin 2 → ℕ) (hoff : off = ![1024 * t.val, 0]) (k : ℕ) (hk : k + 1024 ≤ 8192)
    (inb1 : ∀ a, off a + S1024x128.size a ≤ S8192x128.size a)
    (inb2 : ∀ a, (![0, 0] : Fin 2 → ℕ) a + S64x128.size a ≤ S64x128.size a)
    (inb3 : ∀ a, (![0, 0] : Fin 2 → ℕ) a + S1x64.size a ≤ S1x64.size a)
    (inbk : ∀ a, (![0, k] : Fin 2 → ℕ) a + (![64, 1024] : Fin 2 → ℕ) a ≤ S64x8192.size a)
    (inbp : ∀ a, (![0, k] : Fin 2 → ℕ) a + (![1024, 1024] : Fin 2 → ℕ) a ≤ S1024x8192.size a)
    (r q : Fin 1024) :
    k0_pay16 (F := Ideal) (k0_pay8 (F := Ideal) (View.ld x1 (Rect.unit off S1024x128.size inb1)) (View.ld x2 (Rect.unit ![0, 0] S64x128.size inb2))
        (View.ld x3 (Rect.unit ![0, 0] S1x64.size inb3))) (View.ld xk (Rect.unit ![0, k] ![64, 1024] inbk)) (ix2 r q)
      = paG x1 x2 x3 xk t ((Rect.unit (s := S1024x8192) ![0, k] ![1024, 1024] inbp).emb (ix2 r q)) := by
  have hq : k + q.val < 8192 := by have := q.isLt; omega
  rw [emb_cols k inbp r q hq, paG_ix2]
  exact e_chunk x1 x2 x3 xk t off hoff k inb1 inb2 inb3 inbk r q hq

theorem rs_chunk (x1 : Vec Ideal S8192x128 .f32) (x2 : Vec Ideal S64x128 .f32) (x3 : Vec Ideal S1x64 .f32) (xk : Vec Ideal S64x8192 .bf16) (t : Fin 8)
    (off : Fin 2 → ℕ) (hoff : off = ![1024 * t.val, 0]) (cc : Fin 8) (k : ℕ) (hkc : k = 1024 * cc.val)
    (inb1 : ∀ a, off a + S1024x128.size a ≤ S8192x128.size a)
    (inb2 : ∀ a, (![0, 0] : Fin 2 → ℕ) a + S64x128.size a ≤ S64x128.size a)
    (inb3 : ∀ a, (![0, 0] : Fin 2 → ℕ) a + S1x64.size a ≤ S1x64.size a)
    (inbk : ∀ a, (![0, k] : Fin 2 → ℕ) a + (![64, 1024] : Fin 2 → ℕ) a ≤ S64x8192.size a) (r : Fin 1024) :
    rs (k0_pay16 (F := Ideal) (k0_pay8 (F := Ideal) (View.ld x1 (Rect.unit off S1024x128.size inb1)) (View.ld x2 (Rect.unit ![0, 0] S64x128.size inb2))
        (View.ld x3 (Rect.unit ![0, 0] S1x64.size inb3))) (View.ld xk (Rect.unit ![0, k] ![64, 1024] inbk))) r
      = ∑ q : Fin 1024, pv x1 x2 x3 xk t r (Cert.Spec.row cc q) := by
  unfold rs
  refine Finset.sum_congr rfl fun q _ => ?_
  have hq : k + q.val < 8192 := by have := q.isLt; have := cc.isLt; omega
  rw [e_chunk x1 x2 x3 xk t off hoff k inb1 inb2 inb3 inbk r q hq]
  exact congrArg (pv x1 x2 x3 xk t r) (Fin.ext (by simp only [Cert.Spec.row_val]; omega))

variable (u : Args Ideal)
variable (w : St Ideal)

theorem C_out (hu : CC u.i) (a : Fin 16) (j : Fin 8192) :
    View.canon (rC u hu w).1 (ix2 a j) = w.out (ix2 a j) + ∑ r : Fin 1024, w.wb (ix2 a r) * w.pb (ix2 r j) := by
  have hcov := coverC_out u hu w (ix2 a j)
  refine (View.canon_apply_of_pieces (outG w.out w.wb w.pb) _ ?_ (ix2 a j) hcov).trans (outG_ix2 w.out w.wb w.pb a j)
  unfold rC runC; dsimp only; sl_unfold_words
  intro p hp
  simp only [List.mem_cons, List.not_mem_nil, or_false] at hp
  rcases hp with rfl | rfl | rfl | rfl | rfl | rfl | rfl | rfl
  all_goals
    intro x
    obtain ⟨a', q, rfl⟩ : ∃ (a' : Fin 16) (q : Fin 1024), x = ix2 a' q := ⟨x 0, x 1, eq_ix2 x⟩
    simp only [View.readAt_eq_ld, u.h7.read_unread, u.h12.read_unread, u.h10.read_unread]
  · rw [pay37_eq]; exact out_piece w.out w.wb w.pb 7168 (by omega) _ _ _ a' q
  · rw [pay34_eq]; exact out_piece w.out w.wb w.pb 6144 (by omega) _ _ _ a' q
  · rw [pay30_eq]; exact out_piece w.out w.wb w.pb 5120 (by omega) _ _ _ a' q
  · exact out_piece' w.out w.wb w.pb 4096 (by omega) _ _ _ a' q
  · rw [pay22_eq]; exact out_piece w.out w.wb w.pb 3072 (by omega) _ _ _ a' q
  · rw [pay19_eq]; exact out_piece w.out w.wb w.pb 2048 (by omega) _ _ _ a' q
  · rw [pay15_eq]; exact out_piece w.out w.wb w.pb 1024 (by omega) _ _ _ a' q
  · exact out_piece w.out w.wb w.pb 0 (by omega) _ _ _ a' q

theorem C_pa (hu : CC u.i) (r : Fin 1024) (j : Fin 8192) :
    View.canon (rC u hu w).2.1 (ix2 r j) = pv u.x1 u.x2 u.x3 w.kt (slab u.i) r j := by
  have hcov := coverC_pa u hu w (ix2 r j)
  refine (View.canon_apply_of_pieces (paG u.x1 u.x2 u.x3 w.kt (slab u.i)) _ ?_ (ix2 r j) hcov).trans (paG_ix2 u.x1 u.x2 u.x3 w.kt (slab u.i) r j)
  unfold rC runC; dsimp only; sl_unfold_run_names
  intro p hp
  simp only [List.mem_cons, List.not_mem_nil, or_false] at hp
  rcases hp with rfl | rfl | rfl | rfl | rfl | rfl | rfl | rfl
  all_goals
    intro x
    obtain ⟨r', q, rfl⟩ : ∃ (r' : Fin 1024) (q : Fin 1024), x = ix2 r' q := ⟨x 0, x 1, eq_ix2 x⟩
    simp only [View.readAt_eq_ld, u.h2.read_unread, u.h3.read_unread, u.h4.read_unread, u.h8.read_unread]
  · rw [pay36_eq, pay18_id]; exact pa_piece u.x1 u.x2 u.x3 w.kt (slab u.i) _ (off1_eq u.i) 7168 (by omega) _ _ _ _ _ r' q
  · rw [pay33_eq, pay18_id]; exact pa_piece u.x1 u.x2 u.x3 w.kt (slab u.i) _ (off1_eq u.i) 6144 (by omega) _ _ _ _ _ r' q
  · rw [pay29_eq, pay18_id]; exact pa_piece u.x1 u.x2 u.x3 w.kt (slab u.i) _ (off1_eq u.i) 5120 (by omega) _ _ _ _ _ r' q
  · rw [pay25_eq, pay18_id]; exact pa_piece u.x1 u.x2 u.x3 w.kt (slab u.i) _ (off1_eq u.i) 4096 (by omega) _ _ _ _ _ r' q
  · rw [pay21_eq, pay18_id]; exact pa_piece u.x1 u.x2 u.x3 w.kt (slab u.i) _ (off1_eq u.i) 3072 (by omega) _ _ _ _ _ r' q
  · rw [pay18_id]; exact pa_piece u.x1 u.x2 u.x3 w.kt (slab u.i) _ (off1_eq u.i) 2048 (by omega) _ _ _ _ _ r' q
  · rw [pay14_id, pay13_eq, pay9_eq]; exact pa_piece u.x1 u.x2 u.x3 w.kt (slab u.i) _ (off1_eq u.i) 1024 (by omega) _ _ _ _ _ r' q
  · rw [pay11_eq, pay18_id]; exact pa_piece u.x1 u.x2 u.x3 w.kt (slab u.i) _ (off1_eq u.i) 0 (by omega) _ _ _ _ _ r' q

theorem C_wa (hu : CC u.i) (a : Fin 16) (r : Fin 1024) :
    View.canon (rC u hu w).2.2.1 (ix2 a r) = wv u.x0 u.x1 u.x2 u.x3 w.kt (slab u.i) a r := by
  unfold rC runC; dsimp only; sl_unfold_run_names
  rw [View.canon_unit_zero (S := S16x1024) hz2]
  simp only [View.readAt_eq_ld, u.h1.read_unread, u.h2.read_unread, u.h3.read_unread, u.h4.read_unread, u.h8.read_unread]
  rw [pay5_id]
  refine (w_apply _ _ _ _ a r).trans ?_
  unfold wv
  rw [ld_cols' u.x0 (k0_off2 u.i) (1024 * (u.i 0).val) (off2_eq u.i) _ a r (by have h8 : (u.i 0).val < 8 := (u.i 0).isLt; have := r.isLt; omega)]
  refine congrArg₂ Ideal.div rfl ?_
  rw [z32_apply, z24_apply, z17_apply, z10_apply, pay35_eq, pay31_eq, pay28_eq, pay23_eq, pay20_eq, pay13_eq, pay9_eq, pay9_eq]
  rw [Cert.Spec.sum_slabs (fun j => pv u.x1 u.x2 u.x3 w.kt (slab u.i) r j), Fin.sum_univ_eight]
  rw [rs_chunk u.x1 u.x2 u.x3 w.kt (slab u.i) _ (off1_eq u.i) 0 0 rfl, rs_chunk u.x1 u.x2 u.x3 w.kt (slab u.i) _ (off1_eq u.i) 1 1024 rfl,
    rs_chunk u.x1 u.x2 u.x3 w.kt (slab u.i) _ (off1_eq u.i) 2 2048 rfl, rs_chunk u.x1 u.x2 u.x3 w.kt (slab u.i) _ (off1_eq u.i) 3 3072 rfl,
    rs_chunk u.x1 u.x2 u.x3 w.kt (slab u.i) _ (off1_eq u.i) 4 4096 rfl, rs_chunk u.x1 u.x2 u.x3 w.kt (slab u.i) _ (off1_eq u.i) 5 5120 rfl,
    rs_chunk u.x1 u.x2 u.x3 w.kt (slab u.i) _ (off1_eq u.i) 6 6144 rfl, rs_chunk u.x1 u.x2 u.x3 w.kt (slab u.i) _ (off1_eq u.i) 7 7168 rfl]

end Cert.KernelIdeal.Val

end
-- ==== Proof.KI.CasesAk.lean ====
import proofs.«137864_g5935644803188_cont_9to1c4b_610_18_alg».proof.Proof.KI.Point
import proofs.«137864_g5935644803188_cont_9to1c4b_610_18_alg».proof.Proof.KI.Pay
import proofs.«137864_g5935644803188_cont_9to1c4b_610_18_alg».proof.Proof.KI.CasesDefs
import proofs.«137864_g5935644803188_cont_9to1c4b_610_18_alg».proof.Proof.KI.CasesC

set_option maxRecDepth 16384

noncomputable section

namespace Cert.KernelIdeal.Val

open Cert.KernelIdeal Cert.KernelIdeal.Gen Cert.KernelIdeal.Body
open Idealize.ShloMosaic Idealize.ShloMosaic.TcCoe Idealize.ShloMosaic.Tactic Idealize.ShloMosaic.ValueIdx
open Idealize.SL Idealize.SL.Sem
open Cert.KernelIdeal.Pay

variable (u : Args Ideal)

theorem A_kt (hu : CA u.i) (h : Fin 64) (s : Fin 8192) :
    View.canon (rA u hu).2.1 (ix2 h s) = (∑ d : Fin 128, u.x4 (ix2 h d) * u.x1 (ix2 s d)) + u.x5 (ix2 h 0) := by
  unfold rA runA; dsimp only; sl_unfold_run_names
  rw [View.canon_unit_zero (S := S64x8192) hz2]
  simp only [View.readAt_eq_ld, u.h5.read_unread, u.h2.read_unread, u.h6.read_unread]
  refine (kt_apply _ _ _ h s).trans ?_
  rw [View.ld_unit_zero (S := S64x128) hz2, View.ld_unit_zero (S := S8192x128) hz2, View.ld_unit_zero (S := S64x1) hz2]

theorem A_pa (hu : CA u.i) (r : Fin 1024) (j : Fin 8192) :
    View.canon (rA u hu).2.2.1 (ix2 r j) = pv u.x1 u.x2 u.x3 (View.canon (rA u hu).2.1) (slab u.i) r j := by
  have hcov := coverA_pa u hu (ix2 r j)
  refine (View.canon_apply_of_pieces (paG u.x1 u.x2 u.x3 (View.canon (rA u hu).2.1) (slab u.i)) _ ?_ (ix2 r j) hcov).trans (paG_ix2 u.x1 u.x2 u.x3 _ (slab u.i) r j)
  unfold rA runA; dsimp only; sl_unfold_run_names
  intro p hp
  simp only [List.mem_cons, List.not_mem_nil, or_false] at hp
  rcases hp with rfl | rfl | rfl | rfl | rfl | rfl | rfl | rfl
  all_goals
    intro x
    obtain ⟨r', q, rfl⟩ : ∃ (r' : Fin 1024) (q : Fin 1024), x = ix2 r' q := ⟨x 0, x 1, eq_ix2 x⟩
    simp only [View.readAt_eq_ld, u.h2.read_unread, u.h3.read_unread, u.h4.read_unread, View.readCov_eq_canon']
  · rw [pay36_eq, pay18_id]; exact pa_piece u.x1 u.x2 u.x3 _ (slab u.i) _ (off1_eq u.i) 7168 (by omega) _ _ _ _ _ r' q
  · rw [pay33_eq, pay18_id]; exact pa_piece u.x1 u.x2 u.x3 _ (slab u.i) _ (off1_eq u.i) 6144 (by omega) _ _ _ _ _ r' q
  · rw [pay29_eq, pay18_id]; exact pa_piece u.x1 u.x2 u.x3 _ (slab u.i) _ (off1_eq u.i) 5120 (by omega) _ _ _ _ _ r' q
  · rw [pay25_eq, pay18_id]; exact pa_piece u.x1 u.x2 u.x3 _ (slab u.i) _ (off1_eq u.i) 4096 (by omega) _ _ _ _ _ r' q
  · rw [pay21_eq, pay18_id]; exact pa_piece u.x1 u.x2 u.x3 _ (slab u.i) _ (off1_eq u.i) 3072 (by omega) _ _ _ _ _ r' q
  · rw [pay18_id]; exact pa_piece u.x1 u.x2 u.x3 _ (slab u.i) _ (off1_eq u.i) 2048 (by omega) _ _ _ _ _ r' q
  · rw [pay14_id, pay13_eq, pay9_eq]; exact pa_piece u.x1 u.x2 u.x3 _ (slab u.i) _ (off1_eq u.i) 1024 (by omega) _ _ _ _ _ r' q
  · rw [pay11_eq, pay18_id]; exact pa_piece u.x1 u.x2 u.x3 _ (slab u.i) _ (off1_eq u.i) 0 (by omega) _ _ _ _ _ r' q

theorem A_wa (hu : CA u.i) (a : Fin 16) (r : Fin 1024) :
    View.canon (rA u hu).2.2.2.2.1 (ix2 a r) = wv u.x0 u.x1 u.x2 u.x3 (View.canon (rA u hu).2.1) (slab u.i) a r := by
  unfold rA runA; dsimp only; sl_unfold_run_names
  rw [View.canon_unit_zero (S := S16x1024) hz2]
  simp only [View.readAt_eq_ld, u.h1.read_unread, u.h2.read_unread, u.h3.read_unread, u.h4.read_unread, View.readCov_eq_canon']
  rw [pay5_id]
  refine (w_apply _ _ _ _ a r).trans ?_
  unfold wv
  rw [ld_cols' u.x0 (k0_off2 u.i) (1024 * (u.i 0).val) (off2_eq u.i) _ a r (by have h8 : (u.i 0).val < 8 := (u.i 0).isLt; have := r.isLt; omega)]
  refine congrArg₂ Ideal.div rfl ?_
  rw [z32_apply, z24_apply, z17_apply, z10_apply, pay35_eq, pay31_eq, pay28_eq, pay23_eq, pay20_eq, pay13_eq, pay9_eq, pay9_eq]
  rw [Cert.Spec.sum_slabs (fun j => pv u.x1 u.x2 u.x3 _ (slab u.i) r j), Fin.sum_univ_eight]
  rw [rs_chunk u.x1 u.x2 u.x3 _ (slab u.i) _ (off1_eq u.i) 0 0 rfl,
    rs_chunk u.x1 u.x2 u.x3 _ (slab u.i) _ (off1_eq u.i) 1 1024 rfl,
    rs_chunk u.x1 u.x2 u.x3 _ (slab u.i) _ (off1_eq u.i) 2 2048 rfl,
    rs_chunk u.x1 u.x2 u.x3 _ (slab u.i) _ (off1_eq u.i) 3 3072 rfl,
    rs_chunk u.x1 u.x2 u.x3 _ (slab u.i) _ (off1_eq u.i) 4 4096 rfl,
    rs_chunk u.x1 u.x2 u.x3 _ (slab u.i) _ (off1_eq u.i) 5 5120 rfl,
    rs_chunk u.x1 u.x2 u.x3 _ (slab u.i) _ (off1_eq u.i) 6 6144 rfl,
    rs_chunk u.x1 u.x2 u.x3 _ (slab u.i) _ (off1_eq u.i) 7 7168 rfl]

end Cert.KernelIdeal.Val

end
-- ==== Proof.KI.CasesB.lean ====
import proofs.«137864_g5935644803188_cont_9to1c4b_610_18_alg».proof.Proof.KI.Point
import proofs.«137864_g5935644803188_cont_9to1c4b_610_18_alg».proof.Proof.KI.Pay
import proofs.«137864_g5935644803188_cont_9to1c4b_610_18_alg».proof.Proof.KI.CasesDefs
import proofs.«137864_g5935644803188_cont_9to1c4b_610_18_alg».proof.Proof.KI.CasesC

set_option maxRecDepth 16384

noncomputable section

namespace Cert.KernelIdeal.Val

open Cert.KernelIdeal Cert.KernelIdeal.Gen Cert.KernelIdeal.Body
open Idealize.ShloMosaic Idealize.ShloMosaic.TcCoe Idealize.ShloMosaic.Tactic Idealize.ShloMosaic.ValueIdx
open Idealize.SL Idealize.SL.Sem
open Cert.KernelIdeal.Pay

variable (u : Args Ideal)
variable (w : St Ideal)

/-- Eight column chunks tile the block, each the found output plus the product of the found weights with a chunk of the found slab. -/
theorem B_out (hu : CB u.i) (a : Fin 16) (j : Fin 8192) :
    View.canon (rB u hu w).1 (ix2 a j) = w.out (ix2 a j) + ∑ r : Fin 1024, w.wa (ix2 a r) * w.pa (ix2 r j) := by
  have hcov := coverB_out u hu w (ix2 a j)
  refine (View.canon_apply_of_pieces (outG w.out w.wa w.pa) _ ?_ (ix2 a j) hcov).trans (outG_ix2 w.out w.wa w.pa a j)
  unfold rB runB; dsimp only; sl_unfold_words
  intro p hp
  simp only [List.mem_cons, List.not_mem_nil, or_false] at hp
  rcases hp with rfl | rfl | rfl | rfl | rfl | rfl | rfl | rfl
  all_goals
    intro x
    obtain ⟨a', q, rfl⟩ : ∃ (a' : Fin 16) (q : Fin 1024), x = ix2 a' q := ⟨x 0, x 1, eq_ix2 x⟩
    simp only [View.readAt_eq_ld, u.h7.read_unread, u.h11.read_unread, u.h9.read_unread]
  · rw [pay68_eq]; exact out_piece w.out w.wa w.pa 7168 (by omega) _ _ _ a' q
  · rw [pay65_eq]; exact out_piece w.out w.wa w.pa 6144 (by omega) _ _ _ a' q
  · rw [pay61_eq]; exact out_piece w.out w.wa w.pa 5120 (by omega) _ _ _ a' q
  · rw [pay58_eq, pay57_eq]; exact out_piece' w.out w.wa w.pa 4096 (by omega) _ _ _ a' q
  · rw [pay53_eq]; exact out_piece w.out w.wa w.pa 3072 (by omega) _ _ _ a' q
  · rw [pay50_eq]; exact out_piece w.out w.wa w.pa 2048 (by omega) _ _ _ a' q
  · rw [pay46_eq]; exact out_piece w.out w.wa w.pa 1024 (by omega) _ _ _ a' q
  · rw [pay43_eq]; exact out_piece w.out w.wa w.pa 0 (by omega) _ _ _ a' q

theorem B_pb (hu : CB u.i) (r : Fin 1024) (j : Fin 8192) :
    View.canon (rB u hu w).2.1 (ix2 r j) = pv u.x1 u.x2 u.x3 w.kt (slab u.i) r j := by
  have hcov := coverB_pb u hu w (ix2 r j)
  refine (View.canon_apply_of_pieces (paG u.x1 u.x2 u.x3 w.kt (slab u.i)) _ ?_ (ix2 r j) hcov).trans (paG_ix2 u.x1 u.x2 u.x3 w.kt (slab u.i) r j)
  unfold rB runB; dsimp only; sl_unfold_run_names
  intro p hp
  simp only [List.mem_cons, List.not_mem_nil, or_false] at hp
  rcases hp with rfl | rfl | rfl | rfl | rfl | rfl | rfl | rfl
  all_goals
    intro x
    obtain ⟨r', q, rfl⟩ : ∃ (r' : Fin 1024) (q : Fin 1024), x = ix2 r' q := ⟨x 0, x 1, eq_ix2 x⟩
    simp only [View.readAt_eq_ld, u.h2.read_unread, u.h3.read_unread, u.h4.read_unread, u.h8.read_unread]
  · rw [pay67_eq, pay39_eq, pay18_id]; exact pa_piece u.x1 u.x2 u.x3 w.kt (slab u.i) _ (off3_eq u.i) 7168 (by omega) _ _ _ _ _ r' q
  · rw [pay64_eq, pay39_eq, pay18_id]; exact pa_piece u.x1 u.x2 u.x3 w.kt (slab u.i) _ (off3_eq u.i) 6144 (by omega) _ _ _ _ _ r' q
  · rw [pay60_eq, pay39_eq, pay18_id]; exact pa_piece u.x1 u.x2 u.x3 w.kt (slab u.i) _ (off3_eq u.i) 5120 (by omega) _ _ _ _ _ r' q
  · rw [pay56_eq, pay39_eq, pay18_id]; exact pa_piece u.x1 u.x2 u.x3 w.kt (slab u.i) _ (off3_eq u.i) 4096 (by omega) _ _ _ _ _ r' q
  · rw [pay52_eq, pay39_eq, pay18_id]; exact pa_piece u.x1 u.x2 u.x3 w.kt (slab u.i) _ (off3_eq u.i) 3072 (by omega) _ _ _ _ _ r' q
  · rw [pay49_eq, pay39_eq, pay18_id]; exact pa_piece u.x1 u.x2 u.x3 w.kt (slab u.i) _ (off3_eq u.i) 2048 (by omega) _ _ _ _ _ r' q
  · rw [pay45_eq, pay14_id, pay44_eq, pay9_eq]; exact pa_piece u.x1 u.x2 u.x3 w.kt (slab u.i) _ (off3_eq u.i) 1024 (by omega) _ _ _ _ _ r' q
  · rw [pay42_eq, pay11_eq, pay18_id]; exact pa_piece u.x1 u.x2 u.x3 w.kt (slab u.i) _ (off3_eq u.i) 0 (by omega) _ _ _ _ _ r' q

theorem B_wb (hu : CB u.i) (a : Fin 16) (r : Fin 1024) :
    View.canon (rB u hu w).2.2.1 (ix2 a r) = wv u.x0 u.x1 u.x2 u.x3 w.kt (slab u.i) a r := by
  unfold rB runB; dsimp only; sl_unfold_run_names
  rw [View.canon_unit_zero (S := S16x1024) hz2]
  simp only [View.readAt_eq_ld, u.h1.read_unread, u.h2.read_unread, u.h3.read_unread, u.h4.read_unread, u.h8.read_unread]
  rw [pay6_id, pay69_eq, pay63_eq, pay55_eq, pay48_eq, pay41_eq, pay44_eq, pay39_eq]
  refine (w_apply _ _ _ _ a r).trans ?_
  unfold wv
  rw [ld_cols' u.x0 (k0_off4 u.i) (1024 * (u.i 0).val) (off4_eq u.i) _ a r (by have h8 : (u.i 0).val < 8 := (u.i 0).isLt; have := r.isLt; omega)]
  refine congrArg₂ Ideal.div rfl ?_
  rw [z32_apply, z24_apply, z17_apply, z10_apply, pay35_eq, pay31_eq, pay28_eq, pay23_eq, pay20_eq, pay9_eq, pay9_eq]
  rw [Cert.Spec.sum_slabs (fun j => pv u.x1 u.x2 u.x3 w.kt (slab u.i) r j), Fin.sum_univ_eight]
  rw [rs_chunk u.x1 u.x2 u.x3 w.kt (slab u.i) _ (off3_eq u.i) 0 0 rfl,
    rs_chunk u.x1 u.x2 u.x3 w.kt (slab u.i) _ (off3_eq u.i) 1 1024 rfl,
    rs_chunk u.x1 u.x2 u.x3 w.kt (slab u.i) _ (off3_eq u.i) 2 2048 rfl,
    rs_chunk u.x1 u.x2 u.x3 w.kt (slab u.i) _ (off3_eq u.i) 3 3072 rfl,
    rs_chunk u.x1 u.x2 u.x3 w.kt (slab u.i) _ (off3_eq u.i) 4 4096 rfl,
    rs_chunk u.x1 u.x2 u.x3 w.kt (slab u.i) _ (off3_eq u.i) 5 5120 rfl,
    rs_chunk u.x1 u.x2 u.x3 w.kt (slab u.i) _ (off3_eq u.i) 6 6144 rfl,
    rs_chunk u.x1 u.x2 u.x3 w.kt (slab u.i) _ (off3_eq u.i) 7 7168 rfl]

end Cert.KernelIdeal.Val

end
-- ==== Proof.KI.CasesD.lean ====
import proofs.«137864_g5935644803188_cont_9to1c4b_610_18_alg».proof.Proof.KI.Point
import proofs.«137864_g5935644803188_cont_9to1c4b_610_18_alg».proof.Proof.KI.Pay
import proofs.«137864_g5935644803188_cont_9to1c4b_610_18_alg».proof.Proof.KI.CasesDefs
import proofs.«137864_g5935644803188_cont_9to1c4b_610_18_alg».proof.Proof.KI.CasesC

set_option maxRecDepth 16384

noncomputable section

namespace Cert.KernelIdeal.Val

open Cert.KernelIdeal Cert.KernelIdeal.Gen Cert.KernelIdeal.Body
open Idealize.ShloMosaic Idealize.ShloMosaic.TcCoe Idealize.ShloMosaic.Tactic Idealize.ShloMosaic.ValueIdx
open Idealize.SL Idealize.SL.Sem
open Cert.KernelIdeal.Pay

variable (u : Args Ideal)
variable (w : St Ideal)

theorem D_chunks (hu : CD u.i) (a : Fin 16) (j : Fin 8192) :
    View.canon (rD u hu w).1.tail (ix2 a j) = w.out (ix2 a j) + ∑ r : Fin 1024, w.wa (ix2 a r) * w.pa (ix2 r j) := by
  have hcov := View.cover_of_tiledL (rD u hu w).1.tail S16x1024.size (by sl_kernel_rfl) (ix2 a j)
  refine (View.canon_apply_of_pieces (outG w.out w.wa w.pa) _ ?_ (ix2 a j) hcov).trans (outG_ix2 w.out w.wa w.pa a j)
  unfold rD runD; dsimp only; sl_unfold_words
  try simp only [List.tail_cons]
  intro p hp
  simp only [List.mem_cons, List.not_mem_nil, or_false] at hp
  rcases hp with rfl | rfl | rfl | rfl | rfl | rfl | rfl | rfl
  all_goals
    intro x
    obtain ⟨a', q, rfl⟩ : ∃ (a' : Fin 16) (q : Fin 1024), x = ix2 a' q := ⟨x 0, x 1, eq_ix2 x⟩
    simp only [View.readAt_eq_ld, u.h7.read_unread, u.h11.read_unread, u.h9.read_unread]
  · rw [pay68_eq]; exact out_piece w.out w.wa w.pa 7168 (by omega) _ _ _ a' q
  · rw [pay65_eq]; exact out_piece w.out w.wa w.pa 6144 (by omega) _ _ _ a' q
  · rw [pay61_eq]; exact out_piece w.out w.wa w.pa 5120 (by omega) _ _ _ a' q
  · rw [pay58_eq, pay57_eq]; exact out_piece' w.out w.wa w.pa 4096 (by omega) _ _ _ a' q
  · rw [pay53_eq]; exact out_piece w.out w.wa w.pa 3072 (by omega) _ _ _ a' q
  · rw [pay50_eq]; exact out_piece w.out w.wa w.pa 2048 (by omega) _ _ _ a' q
  · rw [pay46_eq]; exact out_piece w.out w.wa w.pa 1024 (by omega) _ _ _ a' q
  · rw [pay43_eq]; exact out_piece w.out w.wa w.pa 0 (by omega) _ _ _ a' q

theorem D_pb (hu : CD u.i) (r : Fin 1024) (j : Fin 8192) :
    View.canon (rD u hu w).2.1 (ix2 r j) = pv u.x1 u.x2 u.x3 w.kt (slab u.i) r j := by
  have hcov := coverD_pb u hu w (ix2 r j)
  refine (View.canon_apply_of_pieces (paG u.x1 u.x2 u.x3 w.kt (slab u.i)) _ ?_ (ix2 r j) hcov).trans (paG_ix2 u.x1 u.x2 u.x3 w.kt (slab u.i) r j)
  unfold rD runD; dsimp only; sl_unfold_run_names
  intro p hp
  simp only [List.mem_cons, List.not_mem_nil, or_false] at hp
  rcases hp with rfl | rfl | rfl | rfl | rfl | rfl | rfl | rfl
  all_goals
    intro x
    obtain ⟨r', q, rfl⟩ : ∃ (r' : Fin 1024) (q : Fin 1024), x = ix2 r' q := ⟨x 0, x 1, eq_ix2 x⟩
    simp only [View.readAt_eq_ld, u.h2.read_unread, u.h3.read_unread, u.h4.read_unread, u.h8.read_unread]
  · rw [pay67_eq, pay39_eq, pay18_id]; exact pa_piece u.x1 u.x2 u.x3 w.kt (slab u.i) _ (off3_eq u.i) 7168 (by omega) _ _ _ _ _ r' q
  · rw [pay64_eq, pay39_eq, pay18_id]; exact pa_piece u.x1 u.x2 u.x3 w.kt (slab u.i) _ (off3_eq u.i) 6144 (by omega) _ _ _ _ _ r' q
  · rw [pay60_eq, pay39_eq, pay18_id]; exact pa_piece u.x1 u.x2 u.x3 w.kt (slab u.i) _ (off3_eq u.i) 5120 (by omega) _ _ _ _ _ r' q
  · rw [pay56_eq, pay39_eq, pay18_id]; exact pa_piece u.x1 u.x2 u.x3 w.kt (slab u.i) _ (off3_eq u.i) 4096 (by omega) _ _ _ _ _ r' q
  · rw [pay52_eq, pay39_eq, pay18_id]; exact pa_piece u.x1 u.x2 u.x3 w.kt (slab u.i) _ (off3_eq u.i) 3072 (by omega) _ _ _ _ _ r' q
  · rw [pay49_eq, pay39_eq, pay18_id]; exact pa_piece u.x1 u.x2 u.x3 w.kt (slab u.i) _ (off3_eq u.i) 2048 (by omega) _ _ _ _ _ r' q
  · rw [pay45_eq, pay14_id, pay44_eq, pay9_eq]; exact pa_piece u.x1 u.x2 u.x3 w.kt (slab u.i) _ (off3_eq u.i) 1024 (by omega) _ _ _ _ _ r' q
  · rw [pay42_eq, pay11_eq, pay18_id]; exact pa_piece u.x1 u.x2 u.x3 w.kt (slab u.i) _ (off3_eq u.i) 0 (by omega) _ _ _ _ _ r' q

theorem D_wb (hu : CD u.i) (a : Fin 16) (r : Fin 1024) :
    View.canon (rD u hu w).2.2.1 (ix2 a r) = wv u.x0 u.x1 u.x2 u.x3 w.kt (slab u.i) a r := by
  unfold rD runD; dsimp only; sl_unfold_run_names
  rw [View.canon_unit_zero (S := S16x1024) hz2]
  simp only [View.readAt_eq_ld, u.h1.read_unread, u.h2.read_unread, u.h3.read_unread, u.h4.read_unread, u.h8.read_unread]
  rw [pay6_id, pay69_eq, pay63_eq, pay55_eq, pay48_eq, pay41_eq, pay44_eq, pay39_eq]
  refine (w_apply _ _ _ _ a r).trans ?_
  unfold wv
  rw [ld_cols' u.x0 (k0_off4 u.i) (1024 * (u.i 0).val) (off4_eq u.i) _ a r (by have h8 : (u.i 0).val < 8 := (u.i 0).isLt; have := r.isLt; omega)]
  refine congrArg₂ Ideal.div rfl ?_
  rw [z32_apply, z24_apply, z17_apply, z10_apply, pay35_eq, pay31_eq, pay28_eq, pay23_eq, pay20_eq, pay9_eq, pay9_eq]
  rw [Cert.Spec.sum_slabs (fun j => pv u.x1 u.x2 u.x3 w.kt (slab u.i) r j), Fin.sum_univ_eight]
  rw [rs_chunk u.x1 u.x2 u.x3 w.kt (slab u.i) _ (off3_eq u.i) 0 0 rfl,
    rs_chunk u.x1 u.x2 u.x3 w.kt (slab u.i) _ (off3_eq u.i) 1 1024 rfl,
    rs_chunk u.x1 u.x2 u.x3 w.kt (slab u.i) _ (off3_eq u.i) 2 2048 rfl,
    rs_chunk u.x1 u.x2 u.x3 w.kt (slab u.i) _ (off3_eq u.i) 3 3072 rfl,
    rs_chunk u.x1 u.x2 u.x3 w.kt (slab u.i) _ (off3_eq u.i) 4 4096 rfl,
    rs_chunk u.x1 u.x2 u.x3 w.kt (slab u.i) _ (off3_eq u.i) 5 5120 rfl,
    rs_chunk u.x1 u.x2 u.x3 w.kt (slab u.i) _ (off3_eq u.i) 6 6144 rfl,
    rs_chunk u.x1 u.x2 u.x3 w.kt (slab u.i) _ (off3_eq u.i) 7 7168 rfl]

/-- The last point adds the slab found and then the slab it has just produced. -/
theorem D_out (hu : CD u.i) (a : Fin 16) (j : Fin 8192) :
    View.canon (rD u hu w).1 (ix2 a j)
      = (w.out (ix2 a j) + ∑ r : Fin 1024, w.wa (ix2 a r) * w.pa (ix2 r j))
        + ∑ r : Fin 1024, wv u.x0 u.x1 u.x2 u.x3 w.kt (slab u.i) a r * pv u.x1 u.x2 u.x3 w.kt (slab u.i) r j := by
  have h8 := D_chunks u w hu a j
  have hw := fun r => D_wb u w hu a r
  have hp := fun r => D_pb u w hu r j
  unfold rD runD at h8 hw hp ⊢
  dsimp only at h8 hw hp ⊢
  sl_unfold_words
  rw [View.canon_cons_unit_zero (S := S16x8192) hz2]
  refine (tail_apply _ _ _ a j).trans ?_
  refine congrArg₂ (· + ·) ?_ (Finset.sum_congr rfl fun r _ => congrArg₂ (· * ·) ?_ ?_)
  · refine (congrFun ((View.readCov_eq_canon' _ _ _).trans (View.ld_unit_zero (S := S16x8192) hz2 _ _)) (ix2 a j)).trans ?_
    exact h8
  · refine (congrFun ((View.readCov_eq_canon' _ _ _).trans (View.ld_unit_zero (S := S16x1024) hz2 _ _)) (ix2 a r)).trans ?_
    exact hw r
  · refine (congrFun ((View.readCov_eq_canon' _ _ _).trans (View.ld_unit_zero (S := S1024x8192) hz2 _ _)) (ix2 r j)).trans ?_
    exact hp r

end Cert.KernelIdeal.Val

end
-- ==== Proof.KI.Cases.lean ====
import proofs.«137864_g5935644803188_cont_9to1c4b_610_18_alg».proof.Proof.KI.CasesA
import proofs.«137864_g5935644803188_cont_9to1c4b_610_18_alg».proof.Proof.KI.CasesAk
import proofs.«137864_g5935644803188_cont_9to1c4b_610_18_alg».proof.Proof.KI.CasesB
import proofs.«137864_g5935644803188_cont_9to1c4b_610_18_alg».proof.Proof.KI.CasesC
import proofs.«137864_g5935644803188_cont_9to1c4b_610_18_alg».proof.Proof.KI.CasesD
-- ==== Proof.KI.Blocks.lean ====
import proofs.«137864_g5935644803188_cont_9to1c4b_610_18_alg».proof.Proof.KI.Conds
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ (UR sig nD τ) ℕ

variable (m : (ℓ : Loc nD τ sig) → Buf (Elt F) ℓ)

abbrev blk0 (c : Dev nD) (t : Fin cfg0.N) : Vec F S16x8192 .f32 := iblk m c 0 t

abbrev blk1 (c : Dev nD) (t : Fin cfg0.N) : Vec F S8192x128 .f32 := iblk m c 1 t

abbrev blk2 (c : Dev nD) (t : Fin cfg0.N) : Vec F S64x128 .f32 := iblk m c 2 t

abbrev blk3 (c : Dev nD) (t : Fin cfg0.N) : Vec F S1x64 .f32 := iblk m c 3 t

abbrev blk4 (c : Dev nD) (t : Fin cfg0.N) : Vec F S64x128 .f32 := iblk m c 4 t

abbrev blk5 (c : Dev nD) (t : Fin cfg0.N) : Vec F S64x1 .f32 := iblk m c 5 t

theorem idx0 : ∀ t : Fin cfg0.N, win0_0.index t (0 : Fin 2) = 0 ∧ win0_0.index t (1 : Fin 2) = 0 :=
  (by decide +kernel : ∀ t : Fin grid0.N, win0_0.index t (0 : Fin 2) = 0 ∧ win0_0.index t (1 : Fin 2) = 0)

theorem idx1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)

theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

theorem idx3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

theorem idx4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)

theorem idx5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

theorem blk0_apply (c : Dev nD) (t : Fin cfg0.N) (a : Fin 16) (s : Fin 8192) :
    blk0 m c t (ix2 a s) = (m ((c : Thread nD τ).loc main_arg0) : S16x8192.Idx → Elt F .f32) (ix2 a s) := by
  obtain ⟨e0, e1⟩ := idx0 t
  show iblk m c 0 t (ix2 a s) = _
  unfold iblk
  rw [View.read_apply]
  refine (cast_eq _ _).trans ?_
  show V m c main_arg0 (((cfg0.win 0).blk t).view.emb (ix2 a s)) = m ((c : Thread nD τ).loc main_arg0) (ix2 a s)
  rw [V_main_arg0 m c]
  refine congrArg (m ((c : Thread nD τ).loc main_arg0)) ?_
  funext x; apply Fin.ext
  match x with
  | ⟨0, _⟩ => show win0_0.index t (0 : Fin 2) * 16 + 1 * a.val = a.val; omega
  | ⟨1, _⟩ => show win0_0.index t (1 : Fin 2) * 8192 + 1 * s.val = s.val; omega

theorem blk1_apply (c : Dev nD) (t : Fin cfg0.N) (s : Fin 8192) (d : Fin 128) :
    blk1 m c t (ix2 s d) = (m ((c : Thread nD τ).loc main_arg1) : S8192x128.Idx → Elt F .f32) (ix2 s d) := by
  obtain ⟨e0, e1⟩ := idx1 t
  show iblk m c 1 t (ix2 s d) = _
  unfold iblk
  rw [View.read_apply]
  refine (cast_eq _ _).trans ?_
  show V m c main_arg1 (((cfg0.win 1).blk t).view.emb (ix2 s d)) = m ((c : Thread nD τ).loc main_arg1) (ix2 s d)
  rw [V_main_arg1 m c]
  refine congrArg (m ((c : Thread nD τ).loc main_arg1)) ?_
  funext x; apply Fin.ext
  match x with
  | ⟨0, _⟩ => show win0_1.index t (0 : Fin 2) * 8192 + 1 * s.val = s.val; omega
  | ⟨1, _⟩ => show win0_1.index t (1 : Fin 2) * 128 + 1 * d.val = d.val; omega

theorem blk2_apply (c : Dev nD) (t : Fin cfg0.N) (h : Fin 64) (d : Fin 128) :
    blk2 m c t (ix2 h d) = (m ((c : Thread nD τ).loc main_arg4) : S64x128.Idx → Elt F .f32) (ix2 h d) := by
  obtain ⟨e0, e1⟩ := idx2 t
  show iblk m c 2 t (ix2 h d) = _
  unfold iblk
  rw [View.read_apply]
  refine (cast_eq _ _).trans ?_
  show V m c main_arg4 (((cfg0.win 2).blk t).view.emb (ix2 h d)) = m ((c : Thread nD τ).loc main_arg4) (ix2 h d)
  rw [V_main_arg4 m c]
  refine congrArg (m ((c : Thread nD τ).loc main_arg4)) ?_
  funext x; apply Fin.ext
  match x with
  | ⟨0, _⟩ => show win0_2.index t (0 : Fin 2) * 64 + 1 * h.val = h.val; omega
  | ⟨1, _⟩ => show win0_2.index t (1 : Fin 2) * 128 + 1 * d.val = d.val; omega

theorem blk4_apply (c : Dev nD) (t : Fin cfg0.N) (h : Fin 64) (d : Fin 128) :
    blk4 m c t (ix2 h d) = (m ((c : Thread nD τ).loc main_arg2) : S64x128.Idx → Elt F .f32) (ix2 h d) := by
  obtain ⟨e0, e1⟩ := idx4 t
  show iblk m c 4 t (ix2 h d) = _
  unfold iblk
  rw [View.read_apply]
  refine (cast_eq _ _).trans ?_
  show V m c main_arg2 (((cfg0.win 4).blk t).view.emb (ix2 h d)) = m ((c : Thread nD τ).loc main_arg2) (ix2 h d)
  rw [V_main_arg2 m c]
  refine congrArg (m ((c : Thread nD τ).loc main_arg2)) ?_
  funext x; apply Fin.ext
  match x with
  | ⟨0, _⟩ => show win0_4.index t (0 : Fin 2) * 64 + 1 * h.val = h.val; omega
  | ⟨1, _⟩ => show win0_4.index t (1 : Fin 2) * 128 + 1 * d.val = d.val; omega

theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

theorem V_main_v0 (c : Dev nD) :
    (V m c main_v0 : S1x64.Idx → Elt F .f32)
      = shapeCast S1x64 (m ((c : Thread nD τ).loc main_arg5) : S64.Idx → Elt F .f32) shapeCasts_S64_S1x64 := by
  dsimp only [Gen.V, Gen.hostOps0]
  after_results <;> rfl

theorem V_main_v1 (c : Dev nD) :
    (V m c main_v1 : S64x1.Idx → Elt F .f32)
      = shapeCast S64x1 (m ((c : Thread nD τ).loc main_arg3) : S64.Idx → Elt F .f32) shapeCasts_S64_S64x1 := by
  dsimp only [Gen.V, Gen.hostOps0]
  after_results <;> rfl

theorem blk3_apply_unit (c : Dev nD) (t : Fin cfg0.N) (u : Fin 1) (h : Fin 64) :
    blk3 m c t (ix2 u h) = (m ((c : Thread nD τ).loc main_arg5) : S64.Idx → Elt F .f32) (ix1 h) := by
  obtain ⟨e0, e1⟩ := idx3 t
  have hemb : ((cfg0.win 3).blk t).view.emb (ix2 u h) = (ix2 u h : S1x64.Idx) := by
    funext x; apply Fin.ext
    match x with
    | ⟨0, _⟩ => show win0_3.index t (0 : Fin 2) * 1 + 1 * u.val = u.val; omega
    | ⟨1, _⟩ => show win0_3.index t (1 : Fin 2) * 64 + 1 * h.val = h.val; omega
  show iblk m c 3 t (ix2 u h) = _
  unfold iblk
  rw [View.read_apply]
  refine (cast_eq _ _).trans ?_
  show V m c main_v0 (((cfg0.win 3).blk t).view.emb (ix2 u h)) = m ((c : Thread nD τ).loc main_arg5) (ix1 h)
  rw [hemb, V_main_v0 m c]
  exact shapeCast_a_1a_apply (m ((c : Thread nD τ).loc main_arg5) : S64.Idx → Elt F .f32) shapeCasts_S64_S1x64 u h

theorem blk3_apply (c : Dev nD) (t : Fin cfg0.N) (h : Fin 64) :
    blk3 m c t (ix2 (0 : Fin 1) h) = (m ((c : Thread nD τ).loc main_arg5) : S64.Idx → Elt F .f32) (ix1 h) :=
  blk3_apply_unit m c t 0 h

theorem blk5_apply_unit (c : Dev nD) (t : Fin cfg0.N) (h : Fin 64) (u : Fin 1) :
    blk5 m c t (ix2 h u) = (m ((c : Thread nD τ).loc main_arg3) : S64.Idx → Elt F .f32) (ix1 h) := by
  obtain ⟨e0, e1⟩ := idx5 t
  have hemb : ((cfg0.win 5).blk t).view.emb (ix2 h u) = (ix2 h u : S64x1.Idx) := by
    funext x; apply Fin.ext
    match x with
    | ⟨0, _⟩ => show win0_5.index t (0 : Fin 2) * 64 + 1 * h.val = h.val; omega
    | ⟨1, _⟩ => show win0_5.index t (1 : Fin 2) * 1 + 1 * u.val = u.val; omega
  show iblk m c 5 t (ix2 h u) = _
  unfold iblk
  rw [View.read_apply]
  refine (cast_eq _ _).trans ?_
  show V m c main_v1 (((cfg0.win 5).blk t).view.emb (ix2 h u)) = m ((c : Thread nD τ).loc main_arg3) (ix1 h)
  rw [hemb, V_main_v1 m c]
  exact shapeCast_a_a1_apply (m ((c : Thread nD τ).loc main_arg3) : S64.Idx → Elt F .f32) shapeCasts_S64_S64x1 h u

theorem blk5_apply (c : Dev nD) (t : Fin cfg0.N) (h : Fin 64) :
    blk5 m c t (ix2 h (0 : Fin 1)) = (m ((c : Thread nD τ).loc main_arg3) : S64.Idx → Elt F .f32) (ix1 h) :=
  blk5_apply_unit m c t h 0

end Cert.KernelIdeal.Body

end
-- ==== Proof.KI.Final.lean ====
import proofs.«137864_g5935644803188_cont_9to1c4b_610_18_alg».proof.Proof.KI.Cases
import proofs.«137864_g5935644803188_cont_9to1c4b_610_18_alg».proof.Proof.KI.Frame
import proofs.«137864_g5935644803188_cont_9to1c4b_610_18_alg».proof.Proof.KI.Blocks
import proofs.«137864_g5935644803188_cont_9to1c4b_610_18_alg».proof.Proof.Fold
import Idealize.ShloMosaic.Lib.Pipeline.FrameBody
import Idealize.ShloMosaic.Lib.ValueIdx

set_option maxRecDepth 16384

noncomputable section

namespace Cert.KernelIdeal.Val

open Cert.KernelIdeal Cert.KernelIdeal.Gen Cert.KernelIdeal.Body
open Idealize.ShloMosaic Idealize.ShloMosaic.TcCoe Idealize.ShloMosaic.Tactic Idealize.ShloMosaic.ValueIdx
open Idealize.SL Idealize.SL.Sem

section Bridge

variable {b : Fin 16 → Fin 8192 → EReal} {e : Fin 8192 → Fin 128 → EReal}
  {Wk : Fin 64 → Fin 128 → EReal} {bk : Fin 64 → EReal} {Wq : Fin 64 → Fin 128 → EReal} {bq : Fin 64 → EReal}
variable {x0 : Vec Ideal S16x8192 .f32} {x1 : Vec Ideal S8192x128 .f32} {x2 : Vec Ideal S64x128 .f32}
  {x3 : Vec Ideal S1x64 .f32} {x4 : Vec Ideal S64x128 .f32} {x5 : Vec Ideal S64x1 .f32} {xk : Vec Ideal S64x8192 .bf16}

theorem qv_eq (hx1 : ∀ s d, x1 (ix2 s d) = e s d) (hx2 : ∀ h d, x2 (ix2 h d) = Wq h d)
    (hx3 : ∀ h, x3 (ix2 (0 : Fin 1) h) = bq h) (T : Fin 8) (r : Fin 1024) (h : Fin 64) :
    qv x1 x2 x3 T r h = Cert.Spec.query e Wq bq (Cert.Spec.row T r) h := by
  unfold qv Cert.Spec.query
  exact congrArg₂ (· + ·) (Finset.sum_congr rfl fun d _ => congrArg₂ (· * ·) (hx1 _ d) (hx2 h d)) (hx3 h)

theorem kt_eq (hx4 : ∀ h d, x4 (ix2 h d) = Wk h d) (hx1 : ∀ s d, x1 (ix2 s d) = e s d)
    (hx5 : ∀ h, x5 (ix2 h (0 : Fin 1)) = bk h) (h : Fin 64) (s : Fin 8192) :
    (∑ d : Fin 128, x4 (ix2 h d) * x1 (ix2 s d)) + x5 (ix2 h 0) = Cert.Spec.keyT e Wk bk h s := by
  unfold Cert.Spec.keyT
  exact congrArg₂ (· + ·) (Finset.sum_congr rfl fun d _ => congrArg₂ (· * ·) (hx4 h d) (hx1 s d)) (hx5 h)

theorem pv_eq (hx1 : ∀ s d, x1 (ix2 s d) = e s d) (hx2 : ∀ h d, x2 (ix2 h d) = Wq h d)
    (hx3 : ∀ h, x3 (ix2 (0 : Fin 1) h) = bq h) (hk : ∀ h s, xk (ix2 h s) = Cert.Spec.keyT e Wk bk h s)
    (T : Fin 8) (r : Fin 1024) (j : Fin 8192) :
    pv x1 x2 x3 xk T r j = Cert.Spec.expo e Wk bk Wq bq (Cert.Spec.row T r) j := by
  unfold pv Cert.Spec.expo Cert.Spec.logit
  exact congrArg Ideal.exp (Finset.sum_congr rfl fun h _ => congrArg₂ (· * ·) (qv_eq hx1 hx2 hx3 T r h) (hk h j))

theorem wv_eq (hx0 : ∀ a s, x0 (ix2 a s) = b a s) (hx1 : ∀ s d, x1 (ix2 s d) = e s d) (hx2 : ∀ h d, x2 (ix2 h d) = Wq h d)
    (hx3 : ∀ h, x3 (ix2 (0 : Fin 1) h) = bq h) (hk : ∀ h s, xk (ix2 h s) = Cert.Spec.keyT e Wk bk h s)
    (T : Fin 8) (a : Fin 16) (r : Fin 1024) :
    wv x0 x1 x2 x3 xk T a r = Cert.Spec.weight b e Wk bk Wq bq a (Cert.Spec.row T r) := by
  unfold wv Cert.Spec.weight Cert.Spec.rowsum
  exact congrArg₂ Ideal.div (hx0 a _) (Finset.sum_congr rfl fun j _ => pv_eq hx1 hx2 hx3 hk T r j)

end Bridge

/-- The loop invariant: the keys are the specification's, the pair of buffers just filled holds the current slab's exponentials and weights, and the output holds the shares of the slabs already consumed. -/
structure PointInv (b : Fin 16 → Fin 8192 → EReal) (e : Fin 8192 → Fin 128 → EReal) (Wk : Fin 64 → Fin 128 → EReal)
    (bk : Fin 64 → EReal) (Wq : Fin 64 → Fin 128 → EReal) (bq : Fin 64 → EReal) (n : ℕ) (hn : n < 8) (S : St Ideal) : Prop where

  kt : ∀ h s, S.kt (ix2 h s) = Cert.Spec.keyT e Wk bk h s

  paE : n % 2 = 0 → ∀ r j, S.pa (ix2 r j) = Cert.Spec.expo e Wk bk Wq bq (Cert.Spec.row ⟨n, hn⟩ r) j
  waE : n % 2 = 0 → ∀ a r, S.wa (ix2 a r) = Cert.Spec.weight b e Wk bk Wq bq a (Cert.Spec.row ⟨n, hn⟩ r)

  pbO : n % 2 = 1 → n ≠ 7 → ∀ r j, S.pb (ix2 r j) = Cert.Spec.expo e Wk bk Wq bq (Cert.Spec.row ⟨n, hn⟩ r) j
  wbO : n % 2 = 1 → n ≠ 7 → ∀ a r, S.wb (ix2 a r) = Cert.Spec.weight b e Wk bk Wq bq a (Cert.Spec.row ⟨n, hn⟩ r)

  out : ∀ a j, S.out (ix2 a j) = Cert.Spec.acc b e Wk bk Wq bq (if n = 7 then 8 else n) a j

section Steps

variable {b : Fin 16 → Fin 8192 → EReal} {e : Fin 8192 → Fin 128 → EReal}
  {Wk : Fin 64 → Fin 128 → EReal} {bk : Fin 64 → EReal} {Wq : Fin 64 → Fin 128 → EReal} {bq : Fin 64 → EReal}
variable (u : Args Ideal)

theorem PointInv.out_last {n : ℕ} {hn : n < 8} {S : St Ideal} (H : PointInv b e Wk bk Wq bq n hn S) (h7 : n = 7) (a : Fin 16) (j : Fin 8192) :
    S.out (ix2 a j) = Cert.Spec.acc b e Wk bk Wq bq 8 a j :=
  (H.out a j).trans (by rw [if_pos h7])

theorem stepA (hu : CA u.i)
    (hx0 : ∀ a s, u.x0 (ix2 a s) = b a s) (hx1 : ∀ s d, u.x1 (ix2 s d) = e s d) (hx2 : ∀ h d, u.x2 (ix2 h d) = Wq h d)
    (hx3 : ∀ h, u.x3 (ix2 (0 : Fin 1) h) = bq h) (hx4 : ∀ h d, u.x4 (ix2 h d) = Wk h d) (hx5 : ∀ h, u.x5 (ix2 h (0 : Fin 1)) = bk h)
    (n : ℕ) (hn : n < 8) (hsl : slab u.i = ⟨n, hn⟩) (hz : n = 0) :
    PointInv b e Wk bk Wq bq n hn (stA u hu) := by
  have hkt : ∀ h s, View.canon (rA u hu).2.1 (ix2 h s) = Cert.Spec.keyT e Wk bk h s := fun h s =>
    (A_kt u hu h s).trans (kt_eq hx4 hx1 hx5 h s)
  unfold stA
  refine ⟨fun h s => ?_, fun _ r j => ?_, fun _ a r => ?_, fun ho => absurd ho (by omega), fun ho => absurd ho (by omega), fun a j => ?_⟩ <;> (try dsimp only)
  · rw [View.read_writes_junk_eq_canon VK (rA u hu).2.1]
    exact hkt h s
  · rw [View.read_writes_junk_eq_canon VPa (rA u hu).2.2.1]
    refine (A_pa u hu r j).trans ?_
    rw [hsl]
    exact pv_eq hx1 hx2 hx3 hkt ⟨n, hn⟩ r j
  · rw [View.read_writes_junk_eq_canon VWa (rA u hu).2.2.2.2.1]
    refine (A_wa u hu a r).trans ?_
    rw [hsl]
    exact wv_eq hx0 hx1 hx2 hx3 hkt ⟨n, hn⟩ a r
  · rw [View.read_writes_junk_eq_canon VO (rA u hu).1]
    refine (A_out u hu a j).trans ?_
    rw [if_neg (by omega : ¬n = 7), hz]
    exact (Cert.Spec.acc_zero b e Wk bk Wq bq a j).symm

theorem stepC (hu : CC u.i) (prev : St Ideal)
    (hx0 : ∀ a s, u.x0 (ix2 a s) = b a s) (hx1 : ∀ s d, u.x1 (ix2 s d) = e s d) (hx2 : ∀ h d, u.x2 (ix2 h d) = Wq h d)
    (hx3 : ∀ h, u.x3 (ix2 (0 : Fin 1) h) = bq h)
    (n : ℕ) (hn : n < 8) (hp : n - 1 < 8) (hsl : slab u.i = ⟨n, hn⟩) (h0 : n ≠ 0) (hev : n % 2 = 0)
    (ih : PointInv b e Wk bk Wq bq (n - 1) hp prev) :
    PointInv b e Wk bk Wq bq n hn (stC u hu prev) := by
  have hodd : (n - 1) % 2 = 1 := by omega
  have hne : n - 1 ≠ 7 := by omega
  have hn7 : ¬n = 7 := by omega
  have e1 : n - 1 + 1 = n := by omega
  unfold stC
  refine ⟨fun h s => ?_, fun _ r j => ?_, fun _ a r => ?_, fun ho => absurd ho (by omega), fun ho => absurd ho (by omega), fun a j => ?_⟩ <;> (try dsimp only)
  · exact ih.kt h s
  · rw [View.read_writes_junk_eq_canon VPa (rC u hu prev).2.1]
    refine (C_pa u prev hu r j).trans ?_
    rw [hsl]
    exact pv_eq hx1 hx2 hx3 ih.kt ⟨n, hn⟩ r j
  · rw [View.read_writes_junk_eq_canon VWa (rC u hu prev).2.2.1]
    refine (C_wa u prev hu a r).trans ?_
    rw [hsl]
    exact wv_eq hx0 hx1 hx2 hx3 ih.kt ⟨n, hn⟩ a r
  · rw [View.read_writes_junk_eq_canon VO (rC u hu prev).1]
    refine (C_out u prev hu a j).trans ?_
    have hs : Cert.Spec.acc b e Wk bk Wq bq (n - 1 + 1) a j = Cert.Spec.acc b e Wk bk Wq bq (n - 1) a j + Cert.Spec.contrib b e Wk bk Wq bq ⟨n - 1, hp⟩ a j :=
      Cert.Spec.acc_succ b e Wk bk Wq bq ⟨n - 1, hp⟩ a j
    rw [e1] at hs
    rw [if_neg hn7, hs, ih.out a j, if_neg hne]
    unfold Cert.Spec.contrib
    exact congrArg (fun z : EReal => Cert.Spec.acc b e Wk bk Wq bq (n - 1) a j + z)
      (Finset.sum_congr rfl fun r _ => congrArg₂ (· * ·) (ih.wbO hodd hne a r) (ih.pbO hodd hne r j))

theorem stepB (hu : CB u.i) (prev : St Ideal)
    (hx0 : ∀ a s, u.x0 (ix2 a s) = b a s) (hx1 : ∀ s d, u.x1 (ix2 s d) = e s d) (hx2 : ∀ h d, u.x2 (ix2 h d) = Wq h d)
    (hx3 : ∀ h, u.x3 (ix2 (0 : Fin 1) h) = bq h)
    (n : ℕ) (hn : n < 8) (hp : n - 1 < 8) (hsl : slab u.i = ⟨n, hn⟩) (hod : n % 2 = 1) (hn7 : ¬n = 7)
    (ih : PointInv b e Wk bk Wq bq (n - 1) hp prev) :
    PointInv b e Wk bk Wq bq n hn (stB u hu prev) := by
  have hev : (n - 1) % 2 = 0 := by omega
  have hne : n - 1 ≠ 7 := by omega
  have e1 : n - 1 + 1 = n := by omega
  unfold stB
  refine ⟨fun h s => ?_, fun he => absurd he (by omega), fun he => absurd he (by omega), fun _ _ r j => ?_, fun _ _ a r => ?_, fun a j => ?_⟩ <;> (try dsimp only)
  · exact ih.kt h s
  · rw [View.read_writes_junk_eq_canon VPb (rB u hu prev).2.1]
    refine (B_pb u prev hu r j).trans ?_
    rw [hsl]
    exact pv_eq hx1 hx2 hx3 ih.kt ⟨n, hn⟩ r j
  · rw [View.read_writes_junk_eq_canon VWb (rB u hu prev).2.2.1]
    refine (B_wb u prev hu a r).trans ?_
    rw [hsl]
    exact wv_eq hx0 hx1 hx2 hx3 ih.kt ⟨n, hn⟩ a r
  · rw [View.read_writes_junk_eq_canon VO (rB u hu prev).1]
    refine (B_out u prev hu a j).trans ?_
    have hs : Cert.Spec.acc b e Wk bk Wq bq (n - 1 + 1) a j = Cert.Spec.acc b e Wk bk Wq bq (n - 1) a j + Cert.Spec.contrib b e Wk bk Wq bq ⟨n - 1, hp⟩ a j :=
      Cert.Spec.acc_succ b e Wk bk Wq bq ⟨n - 1, hp⟩ a j
    rw [e1] at hs
    rw [if_neg hn7, hs, ih.out a j, if_neg hne]
    unfold Cert.Spec.contrib
    exact congrArg (fun z : EReal => Cert.Spec.acc b e Wk bk Wq bq (n - 1) a j + z)
      (Finset.sum_congr rfl fun r _ => congrArg₂ (· * ·) (ih.waE hev a r) (ih.paE hev r j))

theorem stepD (hu : CD u.i) (prev : St Ideal)
    (hx0 : ∀ a s, u.x0 (ix2 a s) = b a s) (hx1 : ∀ s d, u.x1 (ix2 s d) = e s d) (hx2 : ∀ h d, u.x2 (ix2 h d) = Wq h d)
    (hx3 : ∀ h, u.x3 (ix2 (0 : Fin 1) h) = bq h)
    (n : ℕ) (hn : n < 8) (hp : n - 1 < 8) (hsl : slab u.i = ⟨n, hn⟩) (h7 : n = 7)
    (ih : PointInv b e Wk bk Wq bq (n - 1) hp prev) :
    PointInv b e Wk bk Wq bq n hn (stD u hu prev) := by
  have hev : (n - 1) % 2 = 0 := by omega
  have hne : n - 1 ≠ 7 := by omega
  have e1 : n - 1 + 1 = n := by omega
  have e8 : n + 1 = 8 := by omega
  unfold stD
  refine ⟨fun h s => ?_, fun he => absurd he (by omega), fun he => absurd he (by omega), fun _ hq => absurd h7 hq, fun _ hq => absurd h7 hq, fun a j => ?_⟩ <;> (try dsimp only)
  · exact ih.kt h s
  rw [View.read_writes_junk_eq_canon VO (rD u hu prev).1]
  refine (D_out u prev hu a j).trans ?_
  have hs1 : Cert.Spec.acc b e Wk bk Wq bq (n - 1 + 1) a j = Cert.Spec.acc b e Wk bk Wq bq (n - 1) a j + Cert.Spec.contrib b e Wk bk Wq bq ⟨n - 1, hp⟩ a j :=
    Cert.Spec.acc_succ b e Wk bk Wq bq ⟨n - 1, hp⟩ a j
  rw [e1] at hs1
  have hs2 : Cert.Spec.acc b e Wk bk Wq bq (n + 1) a j = Cert.Spec.acc b e Wk bk Wq bq n a j + Cert.Spec.contrib b e Wk bk Wq bq ⟨n, hn⟩ a j :=
    Cert.Spec.acc_succ b e Wk bk Wq bq ⟨n, hn⟩ a j
  rw [e8] at hs2
  rw [hsl, if_pos h7, hs2, hs1, ih.out a j, if_neg hne]
  unfold Cert.Spec.contrib
  exact congrArg₂ (· + ·)
    (congrArg (fun z : EReal => Cert.Spec.acc b e Wk bk Wq bq (n - 1) a j + z)
      (Finset.sum_congr rfl fun r _ => congrArg₂ (· * ·) (ih.waE hev a r) (ih.paE hev r j)))
    (Finset.sum_congr rfl fun r _ => congrArg₂ (· * ·) (wv_eq hx0 hx1 hx2 hx3 ih.kt ⟨n, hn⟩ a r) (pv_eq hx1 hx2 hx3 ih.kt ⟨n, hn⟩ r j))

end Steps

section Grid

variable (m : (ℓ : Loc nD τ sig) → Buf (Elt Ideal) ℓ) (c : Dev nD)

abbrev Bel : Fin 16 → Fin 8192 → EReal := fun a s => (m ((c : Thread nD τ).loc main_arg0) : S16x8192.Idx → Elt Ideal .f32) (ix2 a s)
abbrev Emb : Fin 8192 → Fin 128 → EReal := fun s d => (m ((c : Thread nD τ).loc main_arg1) : S8192x128.Idx → Elt Ideal .f32) (ix2 s d)
abbrev WK : Fin 64 → Fin 128 → EReal := fun h d => (m ((c : Thread nD τ).loc main_arg2) : S64x128.Idx → Elt Ideal .f32) (ix2 h d)
abbrev BK : Fin 64 → EReal := fun h => (m ((c : Thread nD τ).loc main_arg3) : S64.Idx → Elt Ideal .f32) (ix1 h)
abbrev WQ : Fin 64 → Fin 128 → EReal := fun h d => (m ((c : Thread nD τ).loc main_arg4) : S64x128.Idx → Elt Ideal .f32) (ix2 h d)
abbrev BQ : Fin 64 → EReal := fun h => (m ((c : Thread nD τ).loc main_arg5) : S64.Idx → Elt Ideal .f32) (ix1 h)

theorem lt8 (t : Fin cfg0.N) : t.val < 8 := lt_of_lt_of_eq t.isLt (show cfg0.N = 8 from N_0)

theorem slab_coords : ∀ t : Fin cfg0.N, (slab (grid0.coords t)).val = t.val :=
  (by decide +kernel : ∀ t : Fin grid0.N, (slab (grid0.coords t)).val = t.val)

theorem slab_eq (t : Fin cfg0.N) : slab (grid0.coords t) = ⟨t.val, lt8 t⟩ := Fin.ext (slab_coords t)

def InvAt (t : Fin cfg0.N) : Prop :=
  PointInv (Bel m c) (Emb m c) (WK m c) (BK m c) (WQ m c) (BQ m c) t.val (lt8 t) (stAt m c t.val t.isLt)

/-- By induction on the position; each point is in exactly one of the four cases. -/
theorem inv_all : ∀ (k : ℕ) (t : Fin cfg0.N), t.val = k → InvAt m c t
  | 0, t, ht => by
    unfold InvAt
    rw [stAt_A m c t (by omega)]
    exact stepA (pt m c t) _ (blk0_apply m c t) (blk1_apply m c t) (blk2_apply m c t) (blk3_apply m c t) (blk4_apply m c t) (blk5_apply m c t) t.val (lt8 t) (slab_eq t) ht
  | k + 1, t, ht => by
    have h8 := lt8 t
    have ih : InvAt m c ⟨t.val - 1, pred_lt t⟩ := inv_all k ⟨t.val - 1, pred_lt t⟩ (by show t.val - 1 = k; omega)
    unfold InvAt at ih ⊢
    by_cases h1 : t.val % 2 = 0
    · rw [stAt_C m c t (by omega) h1]
      exact stepC (pt m c t) _ (stAt m c (t.val - 1) (pred_lt t)) (blk0_apply m c t) (blk1_apply m c t) (blk2_apply m c t) (blk3_apply m c t) t.val (lt8 t) (by omega) (slab_eq t) (by omega) h1 ih
    · by_cases h3 : t.val % 8 = 7
      · rw [stAt_D m c t h3]
        exact stepD (pt m c t) _ (stAt m c (t.val - 1) (pred_lt t)) (blk0_apply m c t) (blk1_apply m c t) (blk2_apply m c t) (blk3_apply m c t) t.val (lt8 t) (by omega) (slab_eq t) (by omega) ih
      · rw [stAt_B m c t h1 h3]
        exact stepB (pt m c t) _ (stAt m c (t.val - 1) (pred_lt t)) (blk0_apply m c t) (blk1_apply m c t) (blk2_apply m c t) (blk3_apply m c t) t.val (lt8 t) (by omega) (slab_eq t) (by omega) (by omega) ih

theorem final_out (a : Fin 16) (j : Fin 8192) :
    (stAt m c 7 (by rw [show cfg0.N = 8 from N_0]; decide)).out (ix2 a j)
      = Cert.Spec.out (Bel m c) (Emb m c) (WK m c) (BK m c) (WQ m c) (BQ m c) a j := by
  have h7 : (7 : ℕ) < cfg0.N := by rw [show cfg0.N = 8 from N_0]; decide
  have H : InvAt m c ⟨7, h7⟩ := inv_all m c 7 ⟨7, h7⟩ rfl
  unfold InvAt at H
  exact (H.out_last rfl a j).trans (Cert.Spec.acc_eight (Bel m c) (Emb m c) (WK m c) (BK m c) (WQ m c) (BQ m c) a j)

end Grid

end Cert.KernelIdeal.Val

end
-- ==== Proof.Algebra.lean ====
import proofs.«137864_g5935644803188_cont_9to1c4b_610_18_alg».proof.Proof.Spec
import Mathlib.Data.EReal.Basic
import Mathlib.Data.EReal.Operations
import Mathlib.Analysis.Complex.Exponential
import Mathlib.Algebra.BigOperators.Field

noncomputable section

namespace Cert.Spec

open Idealize.ShloMosaic

theorem coe_sum {ι : Type} (t : Finset ι) (f : ι → ℝ) :
    ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

theorem real_add {x y : EReal} (hx : ∃ r : ℝ, x = r) (hy : ∃ r : ℝ, y = r) : ∃ r : ℝ, x + y = r := by
  obtain ⟨p, rfl⟩ := hx
  obtain ⟨q, rfl⟩ := hy
  exact ⟨p + q, (EReal.coe_add p q).symm⟩

theorem real_mul {x y : EReal} (hx : ∃ r : ℝ, x = r) (hy : ∃ r : ℝ, y = r) : ∃ r : ℝ, x * y = r := by
  obtain ⟨p, rfl⟩ := hx
  obtain ⟨q, rfl⟩ := hy
  exact ⟨p * q, (EReal.coe_mul p q).symm⟩

theorem real_sum {ι : Type} (t : Finset ι) (f : ι → EReal) (hf : ∀ i, ∃ r : ℝ, f i = r) :
    ∃ r : ℝ, ∑ i ∈ t, f i = r := by
  choose g hg using hf
  exact ⟨∑ i ∈ t, g i, by rw [coe_sum]; exact Finset.sum_congr rfl (fun i _ => hg i)⟩

theorem sum_exp_pos {ι : Type} [Fintype ι] (l : ι → ℝ) (j : ι) : 0 < ∑ k : ι, Real.exp (l k) :=
  Finset.sum_pos (fun k _ => Real.exp_pos (l k)) ⟨j, Finset.mem_univ j⟩

theorem real_shift {ι : Type} [Fintype ι] (l : ι → ℝ) (M : ℝ) (j : ι) :
    Real.exp (l j - M) * (1 / ∑ k : ι, Real.exp (l k - M))
      = Real.exp (l j) * (1 / ∑ k : ι, Real.exp (l k)) := by
  have hZ : (∑ k : ι, Real.exp (l k)) ≠ 0 := (sum_exp_pos l j).ne'
  have hM : Real.exp M ≠ 0 := (Real.exp_pos M).ne'
  have hsum : (∑ k : ι, Real.exp (l k - M)) = (∑ k : ι, Real.exp (l k)) / Real.exp M := by
    rw [Finset.sum_div]
    exact Finset.sum_congr rfl (fun k _ => Real.exp_sub (l k) M)
  rw [hsum, Real.exp_sub]
  field_simp

theorem term_shift {ι : Type} [Fintype ι] (x : EReal) (hx : ∃ r : ℝ, x = r)
    (l : ι → EReal) (hl : ∀ k, ∃ r : ℝ, l k = r) (M : EReal) (hM : ∃ r : ℝ, M = r) (j : ι) :
    x * Ideal.div (Ideal.exp (l j - M)) (∑ k : ι, Ideal.exp (l k - M))
      = Ideal.div x (∑ k : ι, Ideal.exp (l k)) * Ideal.exp (l j) := by
  obtain ⟨B, rfl⟩ := hx
  obtain ⟨m, rfl⟩ := hM
  choose L hL using hl
  obtain rfl : l = fun k => (L k : EReal) := funext hL
  have h1 : (∑ k : ι, Real.exp (L k - m)) ≠ 0 := (sum_exp_pos (fun k => L k - m) j).ne'
  have h2 : (∑ k : ι, Real.exp (L k)) ≠ 0 := (sum_exp_pos L j).ne'
  simp only [← EReal.coe_sub, Ideal.exp_coe, ← coe_sum]
  rw [Ideal.div_coe h1, Ideal.div_coe h2, ← EReal.coe_mul, ← EReal.coe_mul, ← EReal.coe_mul,
    ← EReal.coe_mul, real_shift L m j]
  congr 1
  ring

variable (b : Fin 16 → Fin 8192 → EReal) (e : Fin 8192 → Fin 128 → EReal)
  (Wk : Fin 64 → Fin 128 → EReal) (bk : Fin 64 → EReal) (Wq : Fin 64 → Fin 128 → EReal) (bq : Fin 64 → EReal)

theorem logit_real (he : ∀ s d, ∃ r : ℝ, e s d = r) (hWk : ∀ h d, ∃ r : ℝ, Wk h d = r)
    (hbk : ∀ h, ∃ r : ℝ, bk h = r) (hWq : ∀ h d, ∃ r : ℝ, Wq h d = r) (hbq : ∀ h, ∃ r : ℝ, bq h = r)
    (s j : Fin 8192) : ∃ r : ℝ, logit e Wk bk Wq bq s j = r := by
  unfold logit
  refine real_sum _ _ (fun h => real_mul ?_ ?_)
  · unfold query
    exact real_add (real_sum _ _ (fun d => real_mul (he s d) (hWq h d))) (hbq h)
  · unfold keyT
    exact real_add (real_sum _ _ (fun d => real_mul (hWk h d) (he j d))) (hbk h)

/-- Why the two programs agree: at real logits the factor `exp (-M)` of a shifted row cancels between an exponential and the row's sum, so normalising with or without the shift gives the same terms. -/
theorem softmax_shift (hb : ∀ a s, ∃ r : ℝ, b a s = r) (he : ∀ s d, ∃ r : ℝ, e s d = r)
    (hWk : ∀ h d, ∃ r : ℝ, Wk h d = r) (hbk : ∀ h, ∃ r : ℝ, bk h = r)
    (hWq : ∀ h d, ∃ r : ℝ, Wq h d = r) (hbq : ∀ h, ∃ r : ℝ, bq h = r)
    (M : Fin 8192 → EReal) (hM : ∀ s, ∃ r : ℝ, M s = r) (a : Fin 16) (j : Fin 8192) :
    (∑ s : Fin 8192, b a s * Ideal.div (Ideal.exp (logit e Wk bk Wq bq s j - M s))
        (∑ k : Fin 8192, Ideal.exp (logit e Wk bk Wq bq s k - M s)))
      = out b e Wk bk Wq bq a j := by
  unfold out weight rowsum expo
  exact Finset.sum_congr rfl (fun s _ =>
    term_shift (b a s) (hb a s) (fun k => logit e Wk bk Wq bq s k)
      (fun k => logit_real e Wk bk Wq bq he hWk hbk hWq hbq s k) (M s) (hM s) j)

theorem max_real (f : Fin 8192 → EReal) (hf : ∀ k, ∃ r : ℝ, f k = r) (x : EReal) (hle : f 0 ≤ x)
    (hmem : x = ⊥ ∨ ∃ k, x = f k) : ∃ r : ℝ, x = r := by
  rcases hmem with hbot | ⟨k, hk⟩
  · exfalso
    obtain ⟨r, hr⟩ := hf 0
    rw [hbot, hr] at hle
    exact EReal.coe_ne_bot r (le_bot_iff.mp hle)
  · obtain ⟨r, hr⟩ := hf k
    exact ⟨r, hk.trans hr⟩

end Cert.Spec

end
-- ==== Proof.Ref.lean ====
import proofs.«137864_g5935644803188_cont_9to1c4b_610_18_alg».proof.Proof.Gen.ReferenceIdeal.Read
import proofs.«137864_g5935644803188_cont_9to1c4b_610_18_alg».proof.Proof.Algebra
import Idealize.ShloMosaic.Lib.ValueIdx
import Idealize.ShloMosaic.Lib.Pipeline.Value
import Idealize.ShloMosaic.PureOps.Ideal.Laws
import Idealize.ShloMosaic.PureOps.Reduce

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

variable (x0 : (⟨S16x8192, .f32⟩ : BufTy).Contents (Elt Ideal)) (x1 : (⟨S8192x128, .f32⟩ : BufTy).Contents (Elt Ideal))
  (x2 : (⟨S64x128, .f32⟩ : BufTy).Contents (Elt Ideal)) (x3 : (⟨S64, .f32⟩ : BufTy).Contents (Elt Ideal))
  (x4 : (⟨S64x128, .f32⟩ : BufTy).Contents (Elt Ideal)) (x5 : (⟨S64, .f32⟩ : BufTy).Contents (Elt Ideal))

theorem query_entry (s : Fin 8192) (h : Fin 64) :
    val_main_v4 (F := Ideal) x1 x4 x5 (ix2 s h)
      = Cert.Spec.query (fun s d => x1 (ix2 s d)) (fun h d => x4 (ix2 h d)) (fun h => x5 (ix1 h)) s h := by
  rw [val_main_v4_apply, val_main_v1_apply, val_main_v3_apply, val_main_v2_apply]
  unfold Cert.Spec.query
  refine congrArg₂ (· + ·) (Finset.sum_congr rfl fun k _ => ?_) (congrArg x5 ?_)
  · rw [val_main_v0_apply]
    refine congrArg₂ (· * ·) (congrArg x1 ?_) (congrArg x4 ?_)
    · exact funext fun a => Fin.ext (by match a with | ⟨0, _⟩ => rfl | ⟨1, _⟩ => rfl)
    · exact funext fun a => Fin.ext (by match a with | ⟨0, _⟩ => rfl | ⟨1, _⟩ => rfl)
  · exact funext fun a => Fin.ext (by match a with | ⟨0, _⟩ => rfl)

theorem key_entry (h : Fin 64) (j : Fin 8192) :
    val_main_v10 (F := Ideal) x1 x2 x3 (ix2 h j)
      = Cert.Spec.keyT (fun s d => x1 (ix2 s d)) (fun h d => x2 (ix2 h d)) (fun h => x3 (ix1 h)) h j := by
  rw [val_main_v10_apply, val_main_v9_apply, val_main_v6_apply, val_main_v8_apply, val_main_v7_apply]
  unfold Cert.Spec.keyT
  refine congrArg₂ (· + ·) (Finset.sum_congr rfl fun k _ => ?_) (congrArg x3 ?_)
  · rw [val_main_v5_apply]
    refine (mul_comm _ _).trans (congrArg₂ (· * ·) (congrArg x2 ?_) (congrArg x1 ?_))
    · exact funext fun a => Fin.ext (by match a with | ⟨0, _⟩ => rfl | ⟨1, _⟩ => rfl)
    · exact funext fun a => Fin.ext (by match a with | ⟨0, _⟩ => rfl | ⟨1, _⟩ => rfl)
  · exact funext fun a => Fin.ext (by match a with | ⟨0, _⟩ => rfl)

theorem logit_entry (s j : Fin 8192) :
    val_main_v11 (F := Ideal) x1 x2 x3 x4 x5 (ix2 s j)
      = Cert.Spec.logit (fun s d => x1 (ix2 s d)) (fun h d => x2 (ix2 h d)) (fun h => x3 (ix1 h))
          (fun h d => x4 (ix2 h d)) (fun h => x5 (ix1 h)) s j := by
  rw [val_main_v11_apply]
  unfold Cert.Spec.logit
  refine Finset.sum_congr rfl fun k _ => ?_
  have el : lidx_main_v11 (ix2 s j) k = ix2 s k :=
    funext fun a => Fin.ext (by match a with | ⟨0, _⟩ => rfl | ⟨1, _⟩ => rfl)
  have er : ridx_main_v11 (ix2 s j) k = ix2 k j :=
    funext fun a => Fin.ext (by match a with | ⟨0, _⟩ => rfl | ⟨1, _⟩ => rfl)
  rw [el, er, query_entry, key_entry]

theorem fold_max_bot {ι : Type} [DecidableEq ι] (g : ι → EReal) (t : Finset ι) :
    (∀ k ∈ t, g k ≤ t.fold max ⊥ g) ∧ (t.fold max ⊥ g = ⊥ ∨ ∃ k ∈ t, t.fold max ⊥ g = g k) := by
  refine ⟨fun k hk => (Finset.le_fold_max _).mpr (Or.inr ⟨k, hk, le_rfl⟩), ?_⟩
  induction t using Finset.induction_on with
  | empty => exact Or.inl Finset.fold_empty
  | insert a t ha ih =>
    rw [Finset.fold_insert ha]
    rcases le_total (g a) (t.fold max ⊥ g) with hle | hle
    · rw [max_eq_right hle]
      rcases ih with h | ⟨k, hk, h⟩
      · exact Or.inl h
      · exact Or.inr ⟨k, Finset.mem_insert_of_mem hk, h⟩
    · rw [max_eq_left hle]
      exact Or.inr ⟨a, Finset.mem_insert_self a t, rfl⟩

theorem lift_row (h : S8192x8192.Reduces [1] S8192) (s : Fin 8192) (k : Fin (S8192x8192.size 1)) :
    h.lift (ix1 s) k = ix2 s (⟨k.val, k.isLt⟩ : Fin 8192) := by
  funext c; apply Fin.ext
  fin_cases c <;> rfl

theorem ofBits_neg_inf : Ideal.ofBits .f32 0xFF800000#32 = ⊥ := by simp [Ideal.ofBits, Ideal.ieee]

/-- The reference's shift is the maximum of a row of real logits, hence real, which is what lets it cancel. -/
theorem rowmax_real (y : S8192x8192.Idx → EReal) (s : Fin 8192) (hy : ∀ k : Fin 8192, ∃ r : ℝ, y (ix2 s k) = r) :
    ∃ r : ℝ, max (Ideal.ofBits .f32 0xFF800000#32)
      (Host.reduce (FloatOps.maximumf (F := Ideal) (φ := .f32)) y (val_main_cst (F := Ideal))
        reducesTo_S8192x8192_S8192_d1 h_S_ (ix1 s)) = r := by
  have hred : S8192x8192.Reduces [1] S8192 := by decide
  rw [Host.reduce_eq_fold_single (FloatOps.maximumf (F := Ideal) (φ := .f32)) y (val_main_cst (F := Ideal))
    reducesTo_S8192x8192_S8192_d1 hred h_S_ (ix1 s), val_main_cst_apply]
  show ∃ r : ℝ, max (Ideal.ofBits .f32 0xFF800000#32)
      ((Finset.univ : Finset (Fin (S8192x8192.size 1))).fold max (Ideal.ofBits .f32 0xFF800000#32) (y ∘ hred.lift (ix1 s))) = r
  rw [ofBits_neg_inf, max_bot_left]
  obtain ⟨hle, hmem⟩ := fold_max_bot (y ∘ hred.lift (ix1 s)) (Finset.univ : Finset (Fin (S8192x8192.size 1)))
  refine Cert.Spec.max_real (fun k => y (ix2 s k)) hy _ ?_ ?_
  · have h0 := hle (⟨0, by decide⟩ : Fin (S8192x8192.size 1)) (Finset.mem_univ _)
    rw [Function.comp_apply, lift_row] at h0
    exact h0
  · rcases hmem with hb | ⟨k, _, hk⟩
    · exact Or.inl hb
    · rw [Function.comp_apply, lift_row] at hk
      exact Or.inr ⟨⟨k.val, k.isLt⟩, hk⟩

variable (h0 : ∀ i, ∃ r : ℝ, x0 i = r) (h1 : ∀ i, ∃ r : ℝ, x1 i = r) (h2 : ∀ i, ∃ r : ℝ, x2 i = r)
  (h3 : ∀ i, ∃ r : ℝ, x3 i = r) (h4 : ∀ i, ∃ r : ℝ, x4 i = r) (h5 : ∀ i, ∃ r : ℝ, x5 i = r)

include h1 h2 h3 h4 h5 in
theorem shift_real (s : Fin 8192) : ∃ r : ℝ, val_main_v14 (F := Ideal) x1 x2 x3 x4 x5 (ix1 s) = r := by
  rw [val_main_v14_apply, val_main_v13_apply, val_main_cst_0_apply]
  unfold val_main_v12
  refine rowmax_real (val_main_v11 (F := Ideal) x1 x2 x3 x4 x5) s fun k => ?_
  rw [logit_entry]
  exact Cert.Spec.logit_real _ _ _ _ _ (fun s d => h1 (ix2 s d)) (fun h d => h2 (ix2 h d)) (fun h => h3 (ix1 h))
    (fun h d => h4 (ix2 h d)) (fun h => h5 (ix1 h)) s k

theorem exp_entry (s j : Fin 8192) :
    val_main_v18 (F := Ideal) x1 x2 x3 x4 x5 (ix2 s j)
      = Ideal.exp (Cert.Spec.logit (fun s d => x1 (ix2 s d)) (fun h d => x2 (ix2 h d)) (fun h => x3 (ix1 h))
          (fun h d => x4 (ix2 h d)) (fun h => x5 (ix1 h)) s j - val_main_v14 (F := Ideal) x1 x2 x3 x4 x5 (ix1 s)) := by
  rw [val_main_v18_apply, val_main_v17_apply, val_main_v16_apply, val_main_v15_apply, logit_entry]
  have e : idx_main_v15 (idx_main_v16 (ix2 s j)) = ix1 s :=
    funext fun a => Fin.ext (by match a with | ⟨0, _⟩ => rfl)
  rw [e]
  rfl

theorem rowsum_entry (s : Fin 8192) :
    val_main_v19 (F := Ideal) x1 x2 x3 x4 x5 (ix1 s)
      = ∑ k : Fin 8192, Ideal.exp (Cert.Spec.logit (fun s d => x1 (ix2 s d)) (fun h d => x2 (ix2 h d)) (fun h => x3 (ix1 h))
          (fun h d => x4 (ix2 h d)) (fun h => x5 (ix1 h)) s k - val_main_v14 (F := Ideal) x1 x2 x3 x4 x5 (ix1 s)) := by
  rw [val_main_v19_apply, val_main_cst_1_apply]
  refine (congrArg (· + _) Ideal.ofBits_zero_f32).trans ((zero_add _).trans (Finset.sum_congr rfl fun k _ => ?_))
  have e : idx_main_v19 (ix1 s) k = ix2 s k :=
    funext fun a => Fin.ext (by match a with | ⟨0, _⟩ => rfl | ⟨1, _⟩ => rfl)
  rw [e, exp_entry]

theorem weight_entry (s j : Fin 8192) :
    val_main_v22 (F := Ideal) x1 x2 x3 x4 x5 (ix2 s j)
      = Ideal.div
          (Ideal.exp (Cert.Spec.logit (fun s d => x1 (ix2 s d)) (fun h d => x2 (ix2 h d)) (fun h => x3 (ix1 h))
            (fun h d => x4 (ix2 h d)) (fun h => x5 (ix1 h)) s j - val_main_v14 (F := Ideal) x1 x2 x3 x4 x5 (ix1 s)))
          (∑ k : Fin 8192, Ideal.exp (Cert.Spec.logit (fun s d => x1 (ix2 s d)) (fun h d => x2 (ix2 h d)) (fun h => x3 (ix1 h))
            (fun h d => x4 (ix2 h d)) (fun h => x5 (ix1 h)) s k - val_main_v14 (F := Ideal) x1 x2 x3 x4 x5 (ix1 s))) := by
  rw [val_main_v22_apply, val_main_v21_apply, val_main_v20_apply, exp_entry]
  have e : idx_main_v20 (idx_main_v21 (ix2 s j)) = ix1 s :=
    funext fun a => Fin.ext (by match a with | ⟨0, _⟩ => rfl)
  rw [e, rowsum_entry]
  rfl

include h0 h1 h2 h3 h4 h5 in
theorem result_eq_out (a : Fin 16) (j : Fin 8192) :
    val_main_v23 (F := Ideal) x0 x1 x2 x3 x4 x5 (ix2 a j)
      = Cert.Spec.out (fun a s => x0 (ix2 a s)) (fun s d => x1 (ix2 s d)) (fun h d => x2 (ix2 h d)) (fun h => x3 (ix1 h))
          (fun h d => x4 (ix2 h d)) (fun h => x5 (ix1 h)) a j := by
  rw [val_main_v23_apply]
  refine Eq.trans (Finset.sum_congr rfl fun k _ => ?_)
    (Cert.Spec.softmax_shift _ _ _ _ _ _ (fun a s => h0 (ix2 a s)) (fun s d => h1 (ix2 s d)) (fun h d => h2 (ix2 h d))
      (fun h => h3 (ix1 h)) (fun h d => h4 (ix2 h d)) (fun h => h5 (ix1 h))
      (fun s => val_main_v14 (F := Ideal) x1 x2 x3 x4 x5 (ix1 s)) (fun s => shift_real x1 x2 x3 x4 x5 h1 h2 h3 h4 h5 s) a j)
  have el : lidx_main_v23 (ix2 a j) k = ix2 a k :=
    funext fun c => Fin.ext (by match c with | ⟨0, _⟩ => rfl | ⟨1, _⟩ => rfl)
  have er : ridx_main_v23 (ix2 a j) k = ix2 k j :=
    funext fun c => Fin.ext (by match c with | ⟨0, _⟩ => rfl | ⟨1, _⟩ => rfl)
  rw [el, er, weight_entry]

theorem res_eq_out (m : (ℓ : Loc nD τ sig) → Buf (Elt Ideal) ℓ) (c : Dev nD)
    (h0 : ∀ i, ∃ r : ℝ, (m ((c.tc : Thread nD τ).loc main_arg0) : (⟨S16x8192, .f32⟩ : BufTy).Contents (Elt Ideal)) i = ((r : ℝ) : EReal))
    (h1 : ∀ i, ∃ r : ℝ, (m ((c.tc : Thread nD τ).loc main_arg1) : (⟨S8192x128, .f32⟩ : BufTy).Contents (Elt Ideal)) i = ((r : ℝ) : EReal))
    (h2 : ∀ i, ∃ r : ℝ, (m ((c.tc : Thread nD τ).loc main_arg2) : (⟨S64x128, .f32⟩ : BufTy).Contents (Elt Ideal)) i = ((r : ℝ) : EReal))
    (h3 : ∀ i, ∃ r : ℝ, (m ((c.tc : Thread nD τ).loc main_arg3) : (⟨S64, .f32⟩ : BufTy).Contents (Elt Ideal)) i = ((r : ℝ) : EReal))
    (h4 : ∀ i, ∃ r : ℝ, (m ((c.tc : Thread nD τ).loc main_arg4) : (⟨S64x128, .f32⟩ : BufTy).Contents (Elt Ideal)) i = ((r : ℝ) : EReal))
    (h5 : ∀ i, ∃ r : ℝ, (m ((c.tc : Thread nD τ).loc main_arg5) : (⟨S64, .f32⟩ : BufTy).Contents (Elt Ideal)) i = ((r : ℝ) : EReal))
    (a : Fin 16) (j : Fin 8192) :
    Cert.ReferenceIdeal.Value.res_main_v23 (F := Ideal) m c (ix2 a j)
      = Cert.Spec.out
          (fun a s => (m ((c.tc : Thread nD τ).loc main_arg0) : (⟨S16x8192, .f32⟩ : BufTy).Contents (Elt Ideal)) (ix2 a s))
          (fun s d => (m ((c.tc : Thread nD τ).loc main_arg1) : (⟨S8192x128, .f32⟩ : BufTy).Contents (Elt Ideal)) (ix2 s d))
          (fun h d => (m ((c.tc : Thread nD τ).loc main_arg2) : (⟨S64x128, .f32⟩ : BufTy).Contents (Elt Ideal)) (ix2 h d))
          (fun h => (m ((c.tc : Thread nD τ).loc main_arg3) : (⟨S64, .f32⟩ : BufTy).Contents (Elt Ideal)) (ix1 h))
          (fun h d => (m ((c.tc : Thread nD τ).loc main_arg4) : (⟨S64x128, .f32⟩ : BufTy).Contents (Elt Ideal)) (ix2 h d))
          (fun h => (m ((c.tc : Thread nD τ).loc main_arg5) : (⟨S64, .f32⟩ : BufTy).Contents (Elt Ideal)) (ix1 h)) a j :=
  (congrFun (Cert.ReferenceIdeal.Read.val_main_v23_eq (F := Ideal) m c) (ix2 a j)).trans
    (result_eq_out _ _ _ _ _ _ h0 h1 h2 h3 h4 h5 a j)

end Cert.ReferenceIdeal.RefValue

end
-- ==== Proof.Finite.lean ====
import proofs.«137864_g5935644803188_cont_9to1c4b_610_18_alg».proof.Pre_finite_inputs
import Idealize.ShloMosaic.Lib.ReduceAll
import Idealize.ShloMosaic.Lib.ValueIdx
import Idealize.ShloMosaic.PureOps.Ideal

noncomputable section

namespace Cert.Finite

open Idealize.ShloMosaic Cert.Pre_finite_inputs

instance : Subsingleton S_.Idx := ⟨fun a b => funext fun d => d.elim0⟩

theorem real_of_abs_lt (x : Ideal .f32)
    (h : FloatOps.cmpf .olt (FloatOps.hostAbsf x) (FloatOps.ofBits (F := Ideal) .f32 0x7F800000#32) = 1#1) :
    ∃ r : ℝ, x = r := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  have hlt : max (x : EReal) (-(x : EReal)) < ⊤ := by
    by_contra hn
    simp [hn] at h
  rw [max_lt_iff] at hlt
  induction x using EReal.rec with
  | bot => simp at hlt
  | coe r => exact ⟨r, rfl⟩
  | top => simp at hlt

theorem real_of_all {s : Shape} {axes : List (Fin s.rank)} (x : FVec Ideal s .f32)
    (dims : Fin S_.rank → Fin s.rank) (hb : S_.BroadcastsInDim s dims) (hr : s.ReducesTo axes S_)
    (hu : 0 < S_.numel)
    (h : Host.reduce IntOp.andi
          (cmpf .olt (Host.absf x) (broadcastInDim s dims hb (constant (F := Ideal) S_ .f32 0x7F800000#32)))
          (constantI S_ 1 1#1) hr hu ValueIdx.ix0 = 1#1) :
    ∀ i, ∃ r : ℝ, x i = r := by
  intro i
  have hi := Host.reduce_andi_all _ _ hr hu _ h i
  exact real_of_abs_lt (x i) hi

/-- The precondition bounds every entry's absolute value below infinity, so every entry is a real number; the cancellation of the shift needs exactly this. -/
theorem real_of_pre [Cert.Pre_finite_inputs.Facts]
    (x0 : FVec Ideal Cert.Pre_finite_inputs.S16x8192 .f32) (x1 : FVec Ideal Cert.Pre_finite_inputs.S8192x128 .f32)
    (x2 : FVec Ideal Cert.Pre_finite_inputs.S64x128 .f32) (x3 : FVec Ideal Cert.Pre_finite_inputs.S64 .f32)
    (x4 : FVec Ideal Cert.Pre_finite_inputs.S64x128 .f32) (x5 : FVec Ideal Cert.Pre_finite_inputs.S64 .f32)
    (h : Cert.Pre_finite_inputs.fn (F := Ideal) x0 x1 x2 x3 x4 x5 = (fun _ => 1#1)) :
    (∀ i, ∃ r : ℝ, x0 i = r) ∧ (∀ i, ∃ r : ℝ, x1 i = r) ∧ (∀ i, ∃ r : ℝ, x2 i = r) ∧
      (∀ i, ∃ r : ℝ, x3 i = r) ∧ (∀ i, ∃ r : ℝ, x4 i = r) ∧ (∀ i, ∃ r : ℝ, x5 i = r) := by
  have h0 := congrFun h ValueIdx.ix0
  dsimp only [Cert.Pre_finite_inputs.fn, Cert.Pre_finite_inputs.fn_part1] at h0
  obtain ⟨h0, h5⟩ := IntOp.andi_eq_one.1 h0
  obtain ⟨h0, h4⟩ := IntOp.andi_eq_one.1 h0
  obtain ⟨h0, h3⟩ := IntOp.andi_eq_one.1 h0
  obtain ⟨h0, h2⟩ := IntOp.andi_eq_one.1 h0
  obtain ⟨h0, h1⟩ := IntOp.andi_eq_one.1 h0
  exact ⟨real_of_all x0 _ _ _ _ h0, real_of_all x1 _ _ _ _ h1, real_of_all x2 _ _ _ _ h2,
    real_of_all x3 _ _ _ _ h3, real_of_all x4 _ _ _ _ h4, real_of_all x5 _ _ _ _ h5⟩

end Cert.Finite

end
-- ==== Proof.lean ====
import proofs.«137864_g5935644803188_cont_9to1c4b_610_18_alg».proof.Defs
import proofs.«137864_g5935644803188_cont_9to1c4b_610_18_alg».proof.Proof.Gen.Kernel
import proofs.«137864_g5935644803188_cont_9to1c4b_610_18_alg».proof.Proof.Gen.KernelIdeal
import proofs.«137864_g5935644803188_cont_9to1c4b_610_18_alg».proof.Proof.Gen.ReferenceIdeal
import proofs.«137864_g5935644803188_cont_9to1c4b_610_18_alg».proof.Proof.Gen.Pre_finite_inputs
import proofs.«137864_g5935644803188_cont_9to1c4b_610_18_alg».proof.Proof.Gen.ReferenceIdeal.Run
import proofs.«137864_g5935644803188_cont_9to1c4b_610_18_alg».proof.Proof.Gen.ReferenceIdeal.Read
import proofs.«137864_g5935644803188_cont_9to1c4b_610_18_alg».proof.Proof.Spec
import proofs.«137864_g5935644803188_cont_9to1c4b_610_18_alg».proof.Proof.K.Frame
import proofs.«137864_g5935644803188_cont_9to1c4b_610_18_alg».proof.Proof.KI.Frame
import proofs.«137864_g5935644803188_cont_9to1c4b_610_18_alg».proof.Proof.KI.Final
import proofs.«137864_g5935644803188_cont_9to1c4b_610_18_alg».proof.Proof.Ref
import proofs.«137864_g5935644803188_cont_9to1c4b_610_18_alg».proof.Proof.Finite
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Body.frame m ρ

theorem frame_ki : Cert.frame_KernelIdeal := fun m ρ _ => Cert.KernelIdeal.Body.frame m ρ

theorem frame_ri : Cert.frame_ReferenceIdeal := fun m ρ _ =>
  (θ_run Cert.ReferenceIdeal.defs _ _).mono (fun _ h c => (h c).2) (Cert.ReferenceIdeal.Value.run (F := Ideal) m ρ)

/-- Both programs compute the specification: the reference because at real inputs its shift by the row maximum cancels, the kernel by the invariant of its eight points. -/
theorem res_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hpre : (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1))
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Value.res_main_v23 (F := Ideal) m' c = (Cert.KernelIdeal.Body.dats m 0 c).arrAt 6 Cert.KernelIdeal.cfg0.N := by
  obtain ⟨h0, h1, h2, h3, h4, h5⟩ := Cert.Finite.real_of_pre _ _ _ _ _ _ hpre
  refine Eq.trans ?_ (Cert.KernelIdeal.Body.out_final m c).symm
  funext y
  obtain ⟨a, j, rfl⟩ : ∃ (a : Fin 16) (j : Fin 8192), y = ix2 a j := ⟨y 0, y 1, eq_ix2 y⟩
  refine (Cert.ReferenceIdeal.RefValue.res_eq_out m' c (by rw [e0]; exact h0) (by rw [e1]; exact h1) (by rw [e2]; exact h2)
    (by rw [e3]; exact h3) (by rw [e4]; exact h4) (by rw [e5]; exact h5) a j).trans ?_
  rw [e0, e1, e2, e3, e4, e5]
  exact (Cert.KernelIdeal.Val.final_out m c a j).symm

theorem algebraic : Cert.algebraic_KernelIdeal_ReferenceIdeal := by
  intro m ρ m' ρ' hpre hagree
  refine ⟨fun c => (Cert.KernelIdeal.Body.dats m 0 c).arrAt 6 Cert.KernelIdeal.cfg0.N, Cert.KernelIdeal.Body.run_named m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5⟩ := hagree c
  exact res_eq m m' c (hpre c) e0 e1 e2 e3 e4 e5

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
